-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S1024x512 : Shape := ⟨2, ![1024, 512]⟩
abbrev S_ : Shape := ⟨0, ![]⟩
abbrev S4 : Shape := ⟨1, ![4]⟩
abbrev S2 : Shape := ⟨1, ![2]⟩
abbrev S128x512 : Shape := ⟨2, ![128, 512]⟩
abbrev S256x512 : Shape := ⟨2, ![256, 512]⟩
abbrev S32x512 : Shape := ⟨2, ![32, 512]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .local _ .vmem, ⟨0, _⟩ => ⟨S1024x512, .bf16⟩
  | .local _ .vmem, ⟨1, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 2 → Bool
  | ⟨0, _⟩ => true
  | ⟨1, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 2 24 bufScoped semScoped dmaSemScoped tileCredit tileCredit_eq_zero tileCredit_pos).withBarriers [(0, 1)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_11_r0 : BitVec 32 := 16#32
  let v22_r0 : BitVec 32 := Scalar.muli v10 c16_i32_11_r0
  let v23_r0 : BitVec 32 := Scalar.addi c0_i32_r0 v22_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12_r0 : BitVec 32 := 4#32
  let v24_r0 : BitVec 32 := Scalar.muli v5 c4_i32_12_r0
  let v25_r0 : BitVec 32 := Scalar.addi v23_r0 v24_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13_r0 : BitVec 32 := 1#32
  let v26_r0 : BitVec 32 := Scalar.muli v8 c1_i32_13_r0
  let v27_r0 : BitVec 32 := Scalar.addi v25_r0 v26_r0
  v27_r0.toNat
def k0_dev2 (d0 : Dev nD) : Nat :=
  let c0_i32_16_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15_r0 : BitVec 32 := 16#32
  let v28_r0 : BitVec 32 := Scalar.muli v2 c16_i32_15_r0
  let v29_r0 : BitVec 32 := Scalar.addi c0_i32_16_r0 v28_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_17_r0 : BitVec 32 := 4#32
  let v30_r0 : BitVec 32 := Scalar.muli v5 c4_i32_17_r0
  let v31_r0 : BitVec 32 := Scalar.addi v29_r0 v30_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_18_r0 : BitVec 32 := 1#32
  let v32_r0 : BitVec 32 := Scalar.muli v13 c1_i32_18_r0
  let v33_r0 : BitVec 32 := Scalar.addi v31_r0 v32_r0
  v33_r0.toNat
def k0_off1 (d0 : Dev nD) : Fin 2 → Nat :=
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.subi c1_i32_8 v9
  let c128_i32 : BitVec 32 := 128#32
  let v18 : BitVec 32 := Scalar.muli v17 c128_i32
  let c0_i32_19_r0 : BitVec 32 := 0#32
  ![v18.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_9 : BitVec 32 := 128#32
  let v19 : BitVec 32 := Scalar.muli v9 c128_i32_9
  let c0_i32_24_r0 : BitVec 32 := 0#32
  ![v19.toNat, 0]
def k0_off3 (d0 : Dev nD) (c0_i32_30_r0 : BitVec 32) : Fin 2 → Nat :=
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.subi c1_i32_8 v9
  let c128_i32 : BitVec 32 := 128#32
  let v18 : BitVec 32 := Scalar.muli v17 c128_i32
  let v44_r0 : BitVec 32 := Scalar.addi v18 c0_i32_30_r0
  let v45_r0 : Index := Scalar.indexCast v44_r0
  let c0_r0 : Index := 0#32
  ![v45_r0.toNat, 0]
def k0_off4 (d0 : Dev nD) (c0_i32_29_r0 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v14 : BitVec 32 := Scalar.muli v2 c512_i32
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.subi c1_i32_8 v9
  let c128_i32 : BitVec 32 := 128#32
  let v18 : BitVec 32 := Scalar.muli v17 c128_i32
  let v42_r0 : BitVec 32 := Scalar.addi v14 v18
  let v43_r0 : BitVec 32 := Scalar.addi v42_r0 c0_i32_29_r0
  let v48_r0 : Index := Scalar.indexCast v43_r0
  let c0_31_r0 : Index := 0#32
  ![v48_r0.toNat, 0]
def k0_off5 (d0 : Dev nD) (c0_i32_29_r0 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v14 : BitVec 32 := Scalar.muli v2 c512_i32
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.subi c1_i32_8 v9
  let c128_i32 : BitVec 32 := 128#32
  let v18 : BitVec 32 := Scalar.muli v17 c128_i32
  let v42_r0 : BitVec 32 := Scalar.addi v14 v18
  let v43_r0 : BitVec 32 := Scalar.addi v42_r0 c0_i32_29_r0
  let c0_i32_38_r0 : BitVec 32 := 0#32
  ![v43_r0.toNat, 0]
def k0_dev3 (d0 : Dev nD) : Nat :=
  let c0_i32_35_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_34_r0 : BitVec 32 := 16#32
  let v50_r0 : BitVec 32 := Scalar.muli v10 c16_i32_34_r0
  let v51_r0 : BitVec 32 := Scalar.addi c0_i32_35_r0 v50_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36_r0 : BitVec 32 := 4#32
  let v52_r0 : BitVec 32 := Scalar.muli v5 c4_i32_36_r0
  let v53_r0 : BitVec 32 := Scalar.addi v51_r0 v52_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37_r0 : BitVec 32 := 1#32
  let v54_r0 : BitVec 32 := Scalar.muli v8 c1_i32_37_r0
  let v55_r0 : BitVec 32 := Scalar.addi v53_r0 v54_r0
  v55_r0.toNat
def k0_dev4 (d0 : Dev nD) : Nat :=
  let c0_i32_46_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_45_r0 : BitVec 32 := 16#32
  let v70_r0 : BitVec 32 := Scalar.muli v10 c16_i32_45_r0
  let v71_r0 : BitVec 32 := Scalar.addi c0_i32_46_r0 v70_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47_r0 : BitVec 32 := 4#32
  let v72_r0 : BitVec 32 := Scalar.muli v5 c4_i32_47_r0
  let v73_r0 : BitVec 32 := Scalar.addi v71_r0 v72_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48_r0 : BitVec 32 := 1#32
  let v74_r0 : BitVec 32 := Scalar.muli v8 c1_i32_48_r0
  let v75_r0 : BitVec 32 := Scalar.addi v73_r0 v74_r0
  v75_r0.toNat
def k0_dev5 (d0 : Dev nD) : Nat :=
  let c0_i32_57_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_56_r0 : BitVec 32 := 16#32
  let v90_r0 : BitVec 32 := Scalar.muli v10 c16_i32_56_r0
  let v91_r0 : BitVec 32 := Scalar.addi c0_i32_57_r0 v90_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58_r0 : BitVec 32 := 4#32
  let v92_r0 : BitVec 32 := Scalar.muli v5 c4_i32_58_r0
  let v93_r0 : BitVec 32 := Scalar.addi v91_r0 v92_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59_r0 : BitVec 32 := 1#32
  let v94_r0 : BitVec 32 := Scalar.muli v8 c1_i32_59_r0
  let v95_r0 : BitVec 32 := Scalar.addi v93_r0 v94_r0
  v95_r0.toNat
def k0_dev6 (d0 : Dev nD) : Nat :=
  let c0_i32_67_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_66_r0 : BitVec 32 := 16#32
  let v110_r0 : BitVec 32 := Scalar.muli v10 c16_i32_66_r0
  let v111_r0 : BitVec 32 := Scalar.addi c0_i32_67_r0 v110_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68_r0 : BitVec 32 := 4#32
  let v112_r0 : BitVec 32 := Scalar.muli v5 c4_i32_68_r0
  let v113_r0 : BitVec 32 := Scalar.addi v111_r0 v112_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69_r0 : BitVec 32 := 1#32
  let v114_r0 : BitVec 32 := Scalar.muli v8 c1_i32_69_r0
  let v115_r0 : BitVec 32 := Scalar.addi v113_r0 v114_r0
  v115_r0.toNat
def k0_off6 (d0 : Dev nD) (c0_i32_77_r0 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v14 : BitVec 32 := Scalar.muli v2 c512_i32
  let c256_i32_76_r0 : BitVec 32 := 256#32
  let v124_r0 : BitVec 32 := Scalar.addi v14 c256_i32_76_r0
  let v125_r0 : BitVec 32 := Scalar.addi v124_r0 c0_i32_77_r0
  let v128_r0 : Index := Scalar.indexCast v125_r0
  let c0_79_r0 : Index := 0#32
  ![v128_r0.toNat, 0]
def k0_off7 (d0 : Dev nD) (c0_i32_77_r0 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v14 : BitVec 32 := Scalar.muli v2 c512_i32
  let c256_i32_76_r0 : BitVec 32 := 256#32
  let v124_r0 : BitVec 32 := Scalar.addi v14 c256_i32_76_r0
  let v125_r0 : BitVec 32 := Scalar.addi v124_r0 c0_i32_77_r0
  let c0_i32_86_r0 : BitVec 32 := 0#32
  ![v125_r0.toNat, 0]
def k0_dev7 (d0 : Dev nD) : Nat :=
  let c0_i32_83_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_82_r0 : BitVec 32 := 16#32
  let v130_r0 : BitVec 32 := Scalar.muli v10 c16_i32_82_r0
  let v131_r0 : BitVec 32 := Scalar.addi c0_i32_83_r0 v130_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_84_r0 : BitVec 32 := 4#32
  let v132_r0 : BitVec 32 := Scalar.muli v5 c4_i32_84_r0
  let v133_r0 : BitVec 32 := Scalar.addi v131_r0 v132_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85_r0 : BitVec 32 := 1#32
  let v134_r0 : BitVec 32 := Scalar.muli v8 c1_i32_85_r0
  let v135_r0 : BitVec 32 := Scalar.addi v133_r0 v134_r0
  v135_r0.toNat
def k0_dev8 (d0 : Dev nD) : Nat :=
  let c0_i32_95_r0 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_94_r0 : BitVec 32 := 16#32
  let v148_r0 : BitVec 32 := Scalar.muli v10 c16_i32_94_r0
  let v149_r0 : BitVec 32 := Scalar.addi c0_i32_95_r0 v148_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_96_r0 : BitVec 32 := 4#32
  let v150_r0 : BitVec 32 := Scalar.muli v5 c4_i32_96_r0
  let v151_r0 : BitVec 32 := Scalar.addi v149_r0 v150_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97_r0 : BitVec 32 := 1#32
  let v152_r0 : BitVec 32 := Scalar.muli v8 c1_i32_97_r0
  let v153_r0 : BitVec 32 := Scalar.addi v151_r0 v152_r0
  v153_r0.toNat
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_9 : BitVec 32 := 128#32
  let v19 : BitVec 32 := Scalar.muli v9 c128_i32_9
  let v162_r0 : Index := Scalar.indexCast v19
  let c0_102_r0 : Index := 0#32
  ![v162_r0.toNat, 0]
def k0_off9 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v14 : BitVec 32 := Scalar.muli v2 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_9 : BitVec 32 := 128#32
  let v19 : BitVec 32 := Scalar.muli v9 c128_i32_9
  let v165_r0 : BitVec 32 := Scalar.addi v14 v19
  let v166_r0 : Index := Scalar.indexCast v165_r0
  let c0_103_r0 : Index := 0#32
  ![v166_r0.toNat, 0]
def k0_off10 (d0 : Dev nD) (c0_i32_114_r0 : BitVec 32) : Fin 2 → Nat :=
  let c1_i32_6 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v15 : BitVec 32 := Scalar.subi c1_i32_6 v2
  let c512_i32_7 : BitVec 32 := 512#32
  let v16 : BitVec 32 := Scalar.muli v15 c512_i32_7
  let c1_i32_8 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.subi c1_i32_8 v9
  let c128_i32 : BitVec 32 := 128#32
  let v18 : BitVec 32 := Scalar.muli v17 c128_i32
  let v178_r0 : BitVec 32 := Scalar.addi v16 v18
  let v179_r0 : BitVec 32 := Scalar.addi v178_r0 c0_i32_114_r0
  let c0_i32_121_r0 : BitVec 32 := 0#32
  ![v179_r0.toNat, 0]
def k0_dev9 (d0 : Dev nD) : Nat :=
  let c0_i32_118_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117_r0 : BitVec 32 := 16#32
  let v180_r0 : BitVec 32 := Scalar.muli v2 c16_i32_117_r0
  let v181_r0 : BitVec 32 := Scalar.addi c0_i32_118_r0 v180_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119_r0 : BitVec 32 := 4#32
  let v182_r0 : BitVec 32 := Scalar.muli v5 c4_i32_119_r0
  let v183_r0 : BitVec 32 := Scalar.addi v181_r0 v182_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_120_r0 : BitVec 32 := 1#32
  let v184_r0 : BitVec 32 := Scalar.muli v13 c1_i32_120_r0
  let v185_r0 : BitVec 32 := Scalar.addi v183_r0 v184_r0
  v185_r0.toNat
def k0_dev10 (d0 : Dev nD) : Nat :=
  let c0_i32_135_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_134_r0 : BitVec 32 := 16#32
  let v204_r0 : BitVec 32 := Scalar.muli v2 c16_i32_134_r0
  let v205_r0 : BitVec 32 := Scalar.addi c0_i32_135_r0 v204_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_136_r0 : BitVec 32 := 4#32
  let v206_r0 : BitVec 32 := Scalar.muli v5 c4_i32_136_r0
  let v207_r0 : BitVec 32 := Scalar.addi v205_r0 v206_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_137_r0 : BitVec 32 := 1#32
  let v208_r0 : BitVec 32 := Scalar.muli v13 c1_i32_137_r0
  let v209_r0 : BitVec 32 := Scalar.addi v207_r0 v208_r0
  v209_r0.toNat
def k0_dev11 (d0 : Dev nD) : Nat :=
  let c0_i32_152_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_151_r0 : BitVec 32 := 16#32
  let v228_r0 : BitVec 32 := Scalar.muli v2 c16_i32_151_r0
  let v229_r0 : BitVec 32 := Scalar.addi c0_i32_152_r0 v228_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_153_r0 : BitVec 32 := 4#32
  let v230_r0 : BitVec 32 := Scalar.muli v5 c4_i32_153_r0
  let v231_r0 : BitVec 32 := Scalar.addi v229_r0 v230_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_154_r0 : BitVec 32 := 1#32
  let v232_r0 : BitVec 32 := Scalar.muli v13 c1_i32_154_r0
  let v233_r0 : BitVec 32 := Scalar.addi v231_r0 v232_r0
  v233_r0.toNat
def k0_dev12 (d0 : Dev nD) : Nat :=
  let c0_i32_169_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_168_r0 : BitVec 32 := 16#32
  let v252_r0 : BitVec 32 := Scalar.muli v2 c16_i32_168_r0
  let v253_r0 : BitVec 32 := Scalar.addi c0_i32_169_r0 v252_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_170_r0 : BitVec 32 := 4#32
  let v254_r0 : BitVec 32 := Scalar.muli v5 c4_i32_170_r0
  let v255_r0 : BitVec 32 := Scalar.addi v253_r0 v254_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_171_r0 : BitVec 32 := 1#32
  let v256_r0 : BitVec 32 := Scalar.muli v13 c1_i32_171_r0
  let v257_r0 : BitVec 32 := Scalar.addi v255_r0 v256_r0
  v257_r0.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S512x512_S256x512_256_0 : ∀ a, (![256, 0] : Fin 2 → Nat) a + S256x512.size a ≤ S512x512.size a
  h_S32x512 : 0 < S32x512.numel
  bitsLt_bf16_f32 : FTy.bits .bf16 < FTy.bits .f32
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S512x512_S128x512_256_0 : ∀ a, (![256, 0] : Fin 2 → Nat) a + S128x512.size a ≤ S512x512.size a
  h_S128x512 : 0 < S128x512.numel
  inb_S2_S1_0 : ∀ a, (![0] : Fin 1 → Nat) a + S1.size a ≤ S2.size a
  inb_S512x512_S128x512_384_0 : ∀ a, (![384, 0] : Fin 2 → Nat) a + S128x512.size a ≤ S512x512.size a
  inb_S2_S1_1 : ∀ a, (![1] : Fin 1 → Nat) a + S1.size a ≤ S2.size a
  hcc0_scoped0 : 0 + S_.numel ≤ 2
  hcc0_scratch1 : 1 + S_.numel ≤ 24
  hcc0_scratch2 : 2 + S_.numel ≤ 24
  hcc0_scratch3 : 3 + S_.numel ≤ 24
  hcc0_scratch4 : 4 + S4.numel ≤ 24
  hcc0_scratch5 : 8 + S4.numel ≤ 24
  hcc0_scratch6 : 12 + S2.numel ≤ 24
  hcc0_scratch7 : 14 + S2.numel ≤ 24
  hcc0_scratch8 : 16 + S4.numel ≤ 24
  hcc0_scratch9 : 20 + S4.numel ≤ 24
  k0_dev1_lt : ∀ d0 : Dev nD, (k0_dev1 d0) < nD
  k0_dev2_lt : ∀ d0 : Dev nD, (k0_dev2 d0) < nD
  k0_off1_inb : ∀ d0 : Dev nD, ∀ a, (k0_off1 d0) a + S128x512.size a ≤ S512x512.size a
  k0_off2_inb : ∀ d0 : Dev nD, ∀ a, (k0_off2 d0) a + S128x512.size a ≤ S512x512.size a
  k0_off3_inb : ∀ d0 : Dev nD, ∀ (r : Fin 4), ∀ a, (k0_off3 d0 (BitVec.ofNat 32 (32 * r.val))) a + S32x512.size a ≤ S512x512.size a
  k0_off4_inb : ∀ d0 : Dev nD, ∀ (r : Fin 4), ∀ a, (k0_off4 d0 (BitVec.ofNat 32 (32 * r.val))) a + S32x512.size a ≤ S1024x512.size a
  k0_off4_packedbf16 : ∀ d0 : Dev nD, ∀ (r : Fin 4), (Rect.unit (s := S1024x512) (k0_off4 d0 (BitVec.ofNat 32 (32 * r.val))) S32x512.size (k0_off4_inb d0 r)).PackedRows (EltTy.packing .bf16)
  k0_off5_inb : ∀ d0 : Dev nD, ∀ (r : Fin 4), ∀ a, (k0_off5 d0 (BitVec.ofNat 32 (32 * r.val))) a + S32x512.size a ≤ S1024x512.size a
  k0_off5_wordsbf16 : ∀ d0 : Dev nD, ∀ (r : Fin 4), (Rect.unit (s := S1024x512) (k0_off5 d0 (BitVec.ofNat 32 (32 * r.val))) S32x512.size (k0_off5_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off6_inb : ∀ d0 : Dev nD, ∀ (r : Fin 2), ∀ a, (k0_off6 d0 (BitVec.ofNat 32 (128 * r.val))) a + S128x512.size a ≤ S1024x512.size a
  k0_off6_packedbf16 : ∀ d0 : Dev nD, ∀ (r : Fin 2), (Rect.unit (s := S1024x512) (k0_off6 d0 (BitVec.ofNat 32 (128 * r.val))) S128x512.size (k0_off6_inb d0 r)).PackedRows (EltTy.packing .bf16)
  k0_off7_inb : ∀ d0 : Dev nD, ∀ (r : Fin 2), ∀ a, (k0_off7 d0 (BitVec.ofNat 32 (128 * r.val))) a + S128x512.size a ≤ S1024x512.size a
  k0_off7_wordsbf16 : ∀ d0 : Dev nD, ∀ (r : Fin 2), (Rect.unit (s := S1024x512) (k0_off7 d0 (BitVec.ofNat 32 (128 * r.val))) S128x512.size (k0_off7_inb d0 r)).WholeWords (EltTy.packing .bf16)
  k0_dev7_lt : ∀ d0 : Dev nD, (k0_dev7 d0) < nD
  k0_dev8_lt : ∀ d0 : Dev nD, (k0_dev8 d0) < nD
  k0_off8_inb : ∀ d0 : Dev nD, ∀ a, (k0_off8 d0) a + S128x512.size a ≤ S512x512.size a
  k0_off9_inb : ∀ d0 : Dev nD, ∀ a, (k0_off9 d0) a + S128x512.size a ≤ S1024x512.size a
  k0_off9_packedbf16 : ∀ d0 : Dev nD, (Rect.unit (s := S1024x512) (k0_off9 d0) S128x512.size (k0_off9_inb d0)).PackedRows (EltTy.packing .bf16)
  k0_off10_inb : ∀ d0 : Dev nD, ∀ (r : Fin 4), ∀ a, (k0_off10 d0 (BitVec.ofNat 32 (32 * r.val))) a + S32x512.size a ≤ S1024x512.size a
  k0_off10_wordsbf16 : ∀ d0 : Dev nD, ∀ (r : Fin 4), (Rect.unit (s := S1024x512) (k0_off10 d0 (BitVec.ofNat 32 (32 * r.val))) S32x512.size (k0_off10_inb d0 r)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  hstage0_0 : ∀ j, (stage0_0 j).IsWhole

variable [Facts₀]

abbrev cc0_scoped0 : Sems sig S_ := SemArray.consecutive 0 S_ hcc0_scoped0
abbrev cc0_scratch1 : DmaSems sig S_ := SemArray.consecutive 1 S_ hcc0_scratch1
abbrev cc0_scratch2 : DmaSems sig S_ := SemArray.consecutive 2 S_ hcc0_scratch2
abbrev cc0_scratch3 : DmaSems sig S_ := SemArray.consecutive 3 S_ hcc0_scratch3
abbrev cc0_scratch4 : DmaSems sig S4 := SemArray.consecutive 4 S4 hcc0_scratch4
abbrev cc0_scratch5 : DmaSems sig S4 := SemArray.consecutive 8 S4 hcc0_scratch5
abbrev cc0_scratch6 : DmaSems sig S2 := SemArray.consecutive 12 S2 hcc0_scratch6
abbrev cc0_scratch7 : DmaSems sig S2 := SemArray.consecutive 14 S2 hcc0_scratch7
abbrev cc0_scratch8 : DmaSems sig S4 := SemArray.consecutive 16 S4 hcc0_scratch8
abbrev cc0_scratch9 : DmaSems sig S4 := SemArray.consecutive 20 S4 hcc0_scratch9

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S1024x512 : Shape := ⟨2, ![1024, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Sched.lean ====
import proofs.«900690_g7700000000000691_dist_ag_v7x_xyz2x4x4_x_m512_n512_bf16_1_alg».proof.Proof.Gen.KernelIdeal.Skeleton
import proofs.«900690_g7700000000000691_dist_ag_v7x_xyz2x4x4_x_m512_n512_bf16_1_alg».proof.Proof.Gen.KernelIdeal.Launch
import Idealize.ShloMosaic.Lib.ValueIdx
import Idealize.ShloMosaic.Lib.Tactic

noncomputable section

namespace Cert.KernelIdeal.AG

open Cert.KernelIdeal.Gen
open Idealize.ShloMosaic Idealize.ShloMosaic.TcCoe Idealize.ShloMosaic.Rounds
open Idealize.SL Idealize.SL.RA Idealize.SL.BI Idealize.SL.BI.BIBase Idealize.SL.Sem
open Idealize.ShloMosaic.Pipeline (Dat)

variable {F : FTy → Type} [FloatOps F]

theorem px_lt : ∀ c : Dev nD, (c.val + 16) % 32 < nD := by decide
theorem pz_lt : ∀ c : Dev nD, c.val + 1 - 2 * (c.val % 2) < nD := by decide

/-- At mesh coordinates `(c / 16, c / 4 % 4, c % 4)`: the x-partner flips x, the z-partner the low bit of z; both are involutions. -/
def px (c : Dev nD) : Dev nD := ⟨(c.val + 16) % 32, px_lt c⟩
def pz (c : Dev nD) : Dev nD := ⟨c.val + 1 - 2 * (c.val % 2), pz_lt c⟩

theorem px_px : ∀ c : Dev nD, px (px c) = c := by decide
theorem pz_pz : ∀ c : Dev nD, pz (pz c) = c := by decide

/-- The program's device chains are the two partner maps. -/
theorem dev1_eq : ∀ c : Dev nD, (⟨k0_dev1 c, k0_dev1_lt c⟩ : Dev nD) = px c := by decide +kernel
theorem dev2_eq : ∀ c : Dev nD, (⟨k0_dev2 c, k0_dev2_lt c⟩ : Dev nD) = pz c := by decide +kernel
theorem dev3_eq : ∀ c : Dev nD, (⟨k0_dev3 c, k0_dev3_lt c⟩ : Dev nD) = px c := by decide +kernel
theorem dev4_eq : ∀ c : Dev nD, (⟨k0_dev4 c, k0_dev4_lt c⟩ : Dev nD) = px c := by decide +kernel
theorem dev5_eq : ∀ c : Dev nD, (⟨k0_dev5 c, k0_dev5_lt c⟩ : Dev nD) = px c := by decide +kernel
theorem dev6_eq : ∀ c : Dev nD, (⟨k0_dev6 c, k0_dev6_lt c⟩ : Dev nD) = px c := by decide +kernel
theorem dev7_eq : ∀ c : Dev nD, (⟨k0_dev7 c, k0_dev7_lt c⟩ : Dev nD) = px c := by decide +kernel
theorem dev8_eq : ∀ c : Dev nD, (⟨k0_dev8 c, k0_dev8_lt c⟩ : Dev nD) = px c := by decide +kernel
theorem dev9_eq : ∀ c : Dev nD, (⟨k0_dev9 c, k0_dev9_lt c⟩ : Dev nD) = pz c := by decide +kernel
theorem dev10_eq : ∀ c : Dev nD, (⟨k0_dev10 c, k0_dev10_lt c⟩ : Dev nD) = pz c := by decide +kernel
theorem dev11_eq : ∀ c : Dev nD, (⟨k0_dev11 c, k0_dev11_lt c⟩ : Dev nD) = pz c := by decide +kernel
theorem dev12_eq : ∀ c : Dev nD, (⟨k0_dev12 c, k0_dev12_lt c⟩ : Dev nD) = pz c := by decide +kernel

abbrev barS : Sem sig := (SemArray.scalar (sig.barrier 0 rfl) : Sems sig S_).sem
abbrev pzS : Sem sig := (cc0_scoped0 : Sems sig S_).sem

abbrev dS (j : Fin 24) : DmaSem sig := j

variable (m : (ℓ : Loc nD τ sig) → Buf (Elt F) ℓ) (ρ : Dev nD → PrngReg)

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

def s₀ : MemSt nD τ sig (Elt F) := ⟨m, fun _ => 0, ρ⟩

abbrev oM : Memref sig .tc .vmem S1024x512 .bf16 := Memref.whole cc0_stg0_0
abbrev xM : Memref sig .tc .vmem S512x512 .f32 := Memref.whole cc0_scratch0
abbrev hM : Memref sig .tc .hbm S512x512 .f32 := Memref.whole main_arg0

abbrev w32 (k : Fin 4) : BitVec 32 := BitVec.ofNat 32 (32 * k.val)
abbrev w128 (k : Fin 2) : BitVec 32 := BitVec.ofNat 32 (128 * k.val)

abbrev slA (c : Dev nD) (k : Fin 4) : Memref sig .tc .vmem S32x512 .bf16 :=
  oM.slice (Rect.unit (s := S1024x512) (k0_off5 c (w32 k)) S32x512.size (k0_off5_inb c k)) (fun _ => rfl)

abbrev slD (c : Dev nD) (k : Fin 2) : Memref sig .tc .vmem S128x512 .bf16 :=
  oM.slice (Rect.unit (s := S1024x512) (k0_off7 c (w128 k)) S128x512.size (k0_off7_inb c k)) (fun _ => rfl)

abbrev slK (c : Dev nD) : Memref sig .tc .vmem S128x512 .bf16 :=
  oM.slice (Rect.unit (s := S1024x512) (k0_off9 c) S128x512.size (k0_off9_inb c)) (fun _ => rfl)

abbrev slF (c : Dev nD) (k : Fin 4) : Memref sig .tc .vmem S32x512 .bf16 :=
  oM.slice (Rect.unit (s := S1024x512) (k0_off10 c (w32 k)) S32x512.size (k0_off10_inb c k)) (fun _ => rfl)

abbrev xvA (c : Dev nD) : Memref sig .tc .vmem S128x512 .f32 := xM.slice (Rect.unit (s := S512x512) (k0_off1 c) S128x512.size (k0_off1_inb c)) (fun _ => rfl)
abbrev xvB : Memref sig .tc .vmem S256x512 .f32 := xM.slice (Rect.unit (s := S512x512) ![256, 0] S256x512.size inb_S512x512_S256x512_256_0) (fun _ => rfl)
abbrev xvC (c : Dev nD) : Memref sig .tc .vmem S128x512 .f32 := xM.slice (Rect.unit (s := S512x512) (k0_off2 c) S128x512.size (k0_off2_inb c)) (fun _ => rfl)
abbrev hbA (c : Dev nD) : Memref sig .tc .hbm S128x512 .f32 := hM.slice (Rect.unit (s := S512x512) (k0_off1 c) S128x512.size (k0_off1_inb c)) (fun _ => rfl)
abbrev hbB : Memref sig .tc .hbm S256x512 .f32 := hM.slice (Rect.unit (s := S512x512) ![256, 0] S256x512.size inb_S512x512_S256x512_256_0) (fun _ => rfl)
abbrev hbC (c : Dev nD) : Memref sig .tc .hbm S128x512 .f32 := hM.slice (Rect.unit (s := S512x512) (k0_off2 c) S128x512.size (k0_off2_inb c)) (fun _ => rfl)

theorem off5_px : ∀ (c : Dev nD) (k : Fin 4), k0_off5 (px c) (w32 k) = k0_off10 c (w32 k) := by decide +kernel
theorem off4_eq_off5 : ∀ (c : Dev nD) (k : Fin 4), k0_off4 c (w32 k) = k0_off5 c (w32 k) := by decide +kernel
theorem off6_eq_off7 : ∀ (c : Dev nD) (k : Fin 2), k0_off6 c (w128 k) = k0_off7 c (w128 k) := by decide +kernel

abbrev N32 : ℕ := (slA (0 : Dev nD) 0).view.dmaCredit
abbrev N128 : ℕ := (slK (0 : Dev nD)).view.dmaCredit
abbrev NxA : ℕ := (xvA (0 : Dev nD)).view.dmaCredit
abbrev NxB : ℕ := (xvB).view.dmaCredit
theorem N32_pos : 0 < N32 := View.dmaCredit_pos _ (by decide)
theorem N128_pos : 0 < N128 := View.dmaCredit_pos _ (by decide)
theorem NxA_pos : 0 < NxA := View.dmaCredit_pos _ (by decide)
theorem NxB_pos : 0 < NxB := View.dmaCredit_pos _ (by decide)

def xin (c : Dev nD) : S512x512.Idx → Elt F .f32 := m ((c : Thread nD τ).loc main_arg0)

/-- Whose block row `i 0` of `c`'s result comes from: `c` itself, else its x-partner, but on the forwarded band the z-partner's x-partner. -/
def rowSrc (c : Dev nD) (i : S1024x512.Idx) : Dev nD :=
  if (i 0).val / 512 = c.val / 16 then c
  else if 128 * ((c.val % 4) % 2) ≤ (i 0).val % 512 ∧ (i 0).val % 512 < 128 * ((c.val % 4) % 2) + 128 then px (pz c) else px c

def loc512 (i : S1024x512.Idx) : S512x512.Idx :=
  ValueIdx.ix2 (⟨(i 0).val % 512, Nat.mod_lt _ (by decide)⟩ : Fin 512) (⟨(i 1).val, (i 1).isLt⟩ : Fin 512)

/-- Device `c`'s result: row by row the source device's block, narrowed to bf16. -/
def outF (c : Dev nD) : S1024x512.Idx → Elt F .bf16 :=
  fun i => FloatOps.truncf .bf16 bitsLt_bf16_f32 (xin m (rowSrc c i) (loc512 i))

/-- Cells: 0 barrier, 1 z-handshake, 2–4 local copies, then send / receive cells of chunks: 5–8 / 9–12, 13–14 / 15–16, 17–20 / 21–24. -/
def csem (j : Fin 25) : SemLoc sig :=
  if j.val = 0 then .reg barS else if j.val = 1 then .reg pzS
  else .dma (dS ⟨j.val - 1, by have := j.isLt; omega⟩)

abbrev kcell (ck : Dev nD × Fin 25) : GSem nD τ sig := ((ck.1 : Thread nD τ), csem ck.2)

def kindOf : SemLoc sig → Option (Fin 25)
  | .reg s => some (if s = barS then 0 else 1)
  | .dma q => if q.val = 0 then none else some ⟨q.val + 1, Nat.succ_lt_succ (show q.val < 24 from q.isLt)⟩

theorem kindOf_csem : ∀ j : Fin 25, kindOf (csem j) = some j := by decide
theorem csem_injective : Function.Injective csem := by decide

/-- Who pays the one duty of cell `j` of device `c`, and (the partner maps being involutions) whose cell `j` device `c` pays. -/
def pr (c : Dev nD) (j : Fin 25) : Dev nD :=
  if j.val = 0 ∨ (9 ≤ j.val ∧ j.val ≤ 12) ∨ (15 ≤ j.val ∧ j.val ≤ 16) then px c
  else if j.val = 1 ∨ 21 ≤ j.val then pz c else c

theorem pr_pr : ∀ (c : Dev nD) (j : Fin 25), pr (pr c j) j = c := by decide

abbrev pts {sp : Space} {s : Shape} {e : EltTy} (M : Memref sig .tc sp s e) (c : Dev nD)
    (f : Buf (Elt F) (M.view.loc (c : Thread nD τ))) : sProp 𝕄 :=
  M.view.loc (c : Thread nD τ) ↦[M.view.set]{fullShare} f

def ptsAny {sp : Space} {s : Shape} {e : EltTy} (M : Memref sig .tc sp s e) (c : Dev nD) : sProp 𝕄 :=
  iprop(∃ f : Buf (Elt F) (M.view.loc (c : Thread nD τ)), pts M c f)

instance ptsAny_storable {sp : Space} {s : Shape} {e : EltTy} (M : Memref sig .tc sp s e) (c : Dev nD) :
    BI.Storable (upEmb : UEmb _ 𝕄) (ptsAny (F := F) M c) := by unfold ptsAny; infer_instance

def barPay (c : Dev nD) : sProp 𝕄 :=
  iprop(ptsAny (slA c 0) (px c) ∗ ptsAny (slA c 1) (px c) ∗ ptsAny (slA c 2) (px c) ∗ ptsAny (slA c 3) (px c)
    ∗ ptsAny (slD c 0) (px c) ∗ ptsAny (slD c 1) (px c))

def pzPay (c : Dev nD) : sProp 𝕄 :=
  iprop(ptsAny (slF c 0) (pz c) ∗ ptsAny (slF c 1) (pz c) ∗ ptsAny (slF c 2) (pz c) ∗ ptsAny (slF c 3) (pz c))

/-- A signal hands over landing pieces, a landing the piece written at its final contents, a departure the source piece back. -/
def pay (c : Dev nD) (j : Fin 25) : sProp 𝕄 :=
  match j with
  | ⟨0, _⟩ => barPay c
  | ⟨1, _⟩ => pzPay c
  | ⟨2, _⟩ => iprop(pts (xvA c) c (xin m c) ∗ pts (hbA c) c (xin m c))
  | ⟨3, _⟩ => iprop(pts xvB c (xin m c) ∗ pts hbB c (xin m c))
  | ⟨4, _⟩ => iprop(pts (xvC c) c (xin m c) ∗ pts (hbC c) c (xin m c))
  | ⟨5, _⟩ => pts (slA c 0) c (outF m c)
  | ⟨6, _⟩ => pts (slA c 1) c (outF m c)
  | ⟨7, _⟩ => pts (slA c 2) c (outF m c)
  | ⟨8, _⟩ => pts (slA c 3) c (outF m c)
  | ⟨9, _⟩ => pts (slA (px c) 0) c (outF m c)
  | ⟨10, _⟩ => pts (slA (px c) 1) c (outF m c)
  | ⟨11, _⟩ => pts (slA (px c) 2) c (outF m c)
  | ⟨12, _⟩ => pts (slA (px c) 3) c (outF m c)
  | ⟨13, _⟩ => pts (slD c 0) c (outF m c)
  | ⟨14, _⟩ => pts (slD c 1) c (outF m c)
  | ⟨15, _⟩ => pts (slD (px c) 0) c (outF m c)
  | ⟨16, _⟩ => pts (slD (px c) 1) c (outF m c)
  | ⟨17, _⟩ => pts (slF c 0) c (outF m c)
  | ⟨18, _⟩ => pts (slF c 1) c (outF m c)
  | ⟨19, _⟩ => pts (slF c 2) c (outF m c)
  | ⟨20, _⟩ => pts (slF c 3) c (outF m c)
  | ⟨21, _⟩ => pts (slF (pz c) 0) c (outF m c)
  | ⟨22, _⟩ => pts (slF (pz c) 1) c (outF m c)
  | ⟨23, _⟩ => pts (slF (pz c) 2) c (outF m c)
  | ⟨_, _⟩ => pts (slF (pz c) 3) c (outF m c)

def amt (j : Fin 25) : ℕ :=
  if j.val ≤ 1 then 1 else if j.val = 2 ∨ j.val = 4 then NxA else if j.val = 3 then NxB
  else if (13 ≤ j.val ∧ j.val ≤ 16) then N128 else N32

theorem amt_pos (j : Fin 25) : 0 < amt j := by
  unfold amt; (repeat' split) <;> first | exact Nat.one_pos | exact NxA_pos | exact NxB_pos | exact N128_pos | exact N32_pos

def sched : Rounds.Schedule (GSem nD τ sig) Unit 𝕄 where
  duties g r := if r = 0 ∧ g.1.2 = .tc ∧ (kindOf g.2).isSome then {()} else ∅
  unitless _ := False
  amount g _ _ := match kindOf g.2 with | some j => amt j | none => 1
  payload g _ _ := match kindOf g.2 with | some j => pay m g.1.1 j | none => iprop(emp)
  amount_pos g _ _ _ := by
    cases h : kindOf g.2 with
    | none => exact Nat.one_pos
    | some j => exact amt_pos j

instance pay_storable (c : Dev nD) (j : Fin 25) : BI.Storable (upEmb : UEmb _ 𝕄) (pay (F := F) m c j) := by
  unfold pay barPay pzPay
  (repeat' split) <;> infer_instance

instance sched_payload_storable (g : GSem nD τ sig) (r : ℕ) (d : Unit) :
    BI.Storable (upEmb : UEmb _ 𝕄) ((sched (F := F) m).payload g r d) := by
  show BI.Storable upEmb (match kindOf g.2 with | some j => pay m g.1.1 j | none => iprop(emp))
  split <;> infer_instance

section Tables
variable (c : Dev nD) (j : Fin 25)

theorem duties_cell : (sched (F := F) m).duties (kcell (c, j)) 0 = {()} := by
  dsimp only [sched]; exact if_pos ⟨rfl, rfl, by rw [kindOf_csem]; rfl⟩
theorem duties_later (g : GSem nD τ sig) : ∀ r, 1 ≤ r → (sched (F := F) m).duties g r = ∅ :=
  fun r hr => by dsimp only [sched]; rw [if_neg fun h => by omega]
theorem amount_cell (d : Unit) : (sched (F := F) m).amount (kcell (c, j)) 0 d = amt j := by
  dsimp only [sched]; rw [kindOf_csem]
theorem expect_cell : (sched (F := F) m).expect (kcell (c, j)) 0 = amt j := by
  unfold Schedule.expect Schedule.amountOf; rw [duties_cell, Finset.sum_singleton, amount_cell]
theorem payload_cell (d : Unit) : (sched (F := F) m).payload (kcell (c, j)) 0 d = pay m c j := by
  dsimp only [sched]; rw [kindOf_csem]
theorem rest_cell : bigSep ((sched (F := F) m).duties (kcell (c, j)) 0 \ ∅) (fun d => (sched (F := F) m).payload (kcell (c, j)) 0 d) = pay m c j := by
  rw [Finset.sdiff_empty, duties_cell, bigSep_singleton, payload_cell]

end Tables

/-- What device `c` owes at launch, in the order it pays: two signals, then the arrival of each of its ten addressed copies. -/
def dues (c : Dev nD) : List (GSem nD τ sig × ℕ) :=
  [(kcell (px c, 0), 1), (kcell (pz c, 1), 1),
   (kcell (px c, 9), N32), (kcell (px c, 10), N32), (kcell (px c, 11), N32), (kcell (px c, 12), N32),
   (kcell (px c, 15), N128), (kcell (px c, 16), N128),
   (kcell (pz c, 21), N32), (kcell (pz c, 22), N32), (kcell (pz c, 23), N32), (kcell (pz c, 24), N32)]

def Osum (l : List (GSem nD τ sig × ℕ)) : CellTallies nD τ sig Unit := l.foldr (fun x acc => acc + tallyAt x.1 () x.2) 0

theorem Osum_cons (x : GSem nD τ sig × ℕ) (l : List (GSem nD τ sig × ℕ)) : Osum (x :: l) = Osum l + tallyAt x.1 () x.2 := rfl
theorem Osum_nil : Osum ([] : List (GSem nD τ sig × ℕ)) = 0 := rfl

def Oat (c : Dev nD) (i : ℕ) : CellTallies nD τ sig Unit := Osum ((dues c).drop i)
def O₀ (c : Dev nD) : CellTallies nD τ sig Unit := Oat c 0

def L (g : GSem nD τ sig) : Finset Unit := if g.1.2 = .tc then {()} else ∅

/-- A device waits on a cell only while all it still owes lies strictly above that cell's level. -/
def lv (g : GSem nD τ sig) (_ : Unit) : ℕ :=
  match kindOf g.2 with
  | some j => if 21 ≤ j.val then 3 else if (9 ≤ j.val ∧ j.val ≤ 12) ∨ (15 ≤ j.val ∧ j.val ≤ 16) then 2 else 1
  | none => 0

theorem L_of_ne (g : GSem nD τ sig) (h : g.1.2 ≠ .tc) : L g = ∅ := if_neg h
theorem L_tc (c : Dev nD) (sm : SemLoc sig) : L ((c : Thread nD τ), sm) = {()} := if_pos rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def records (K : Dev nD × Fin 25 → ℕ) : sProp 𝕄 :=
  iprop((bigSep Finset.univ fun ck : Dev nD × Fin 25 => cellInv ER (sched m) (K ck) (kcell ck))
    ∗ bigSep Finset.univ fun ck : Dev nD × Fin 25 => reached ER (kcell ck) 0)

instance records_persistent (K : Dev nD × Fin 25 → ℕ) : BI.Persistent (records (F := F) m K) := by unfold records; infer_instance

def payToks (c : Dev nD) : sProp 𝕄 := bigSep Finset.univ fun j : Fin 25 => dutyTok ER (kcell (pr c j, j)) 0 ()

def posns (c : Dev nD) : sProp 𝕄 := bigSep Finset.univ fun j : Fin 25 => atPos ER (kcell (c, j)) 0 ∅ 0

def ghost (K : Dev nD × Fin 25 → ℕ) (c : Dev nD) : sProp 𝕄 := iprop(records m K ∗ posns c ∗ payToks c)

def remoteJ : Finset (Fin 25) := {0, 1, 9, 10, 11, 12, 15, 16, 21, 22, 23, 24}

def creds (c : Dev nD) : sProp 𝕄 := bigSep remoteJ fun j => cred (tallyAt (kcell (c, j)) () (amt j))

def hbmPts (c : Dev nD) : sProp 𝕄 := ((c : Thread nD τ).loc main_arg0) ↦{fullShare} xin m c

def xvAny (c : Dev nD) : sProp 𝕄 := iprop(∃ f : Buf (Elt F) ((c : Thread nD τ).loc cc0_scratch0), ((c : Thread nD τ).loc cc0_scratch0) ↦{fullShare} f)

def start (c : Dev nD) : sProp 𝕄 := iprop((∃ K, ghost m K c) ∗ creds c ∗ levAts L lv ∗ hbmPts m c)

def Φ₀ (c : Dev nD) : sProp 𝕄 := iprop(start m c ∗ xvAny c)

def ownZero (c : Dev nD) : sProp 𝕄 := bigSep (Finset.univ.erase (0 : Fin 25)) fun j => semVal (kcell (c, j)) 0

def Φ₁ (c : Dev nD) : sProp 𝕄 := iprop(hbmPts m c ∗ xvAny c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 25 → ℕ) (c : Dev nD) : sProp 𝕄 :=
  iprop((ghost m K c ∗ creds c ∗ levAts L lv ∗ hbmPts m c ∗ xvAny c)
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outF m c))

/-- A function of the body's sixteen buffers and semaphores, at the ones the launch calls the body with. -/
abbrev atLaunch {β : Type 1} (p : (a0 : Memref sig .tc .hbm S512x512 .f32) → a0.IsWhole → (a1 : Memref sig .tc .vmem S1024x512 .bf16) → a1.IsWhole →
    (a2 : Memref sig .tc .vmem S512x512 .f32) → a2.IsWhole → DmaSems sig S_ → DmaSems sig S_ → DmaSems sig S_ → DmaSems sig S4 → DmaSems sig S4 →
    DmaSems sig S2 → DmaSems sig S2 → DmaSems sig S4 → DmaSems sig S4 → Sems sig S_ → β) : β :=
  p (Memref.whole main_arg0) (Memref.isWhole_whole _) (win0_0.stage (0 : Fin 1)) (hstage0_0 0) (Memref.whole cc0_scratch0) (Memref.isWhole_whole _) cc0_scratch1 cc0_scratch2 cc0_scratch3 cc0_scratch4 cc0_scratch5 cc0_scratch6 cc0_scratch7 cc0_scratch8 cc0_scratch9 cc0_scoped0

abbrev theBody : Prog (TpuEff nD τ sig (Elt F) Λ₀ .tc) PUnit := atLaunch (cc0_body (F := F))

end Cert.KernelIdeal.AG

end
-- ==== Proof.Value.lean ====
import proofs.«900690_g7700000000000691_dist_ag_v7x_xyz2x4x4_x_m512_n512_bf16_1_alg».proof.Proof.Sched
import Idealize.ShloMosaic.Lib.Layout

noncomputable section

namespace Cert.KernelIdeal.AG

open Idealize.ShloMosaic
open Idealize.ShloMosaic.TcCoe

theorem px_x : ∀ c : Dev nD, (px c).val / 16 = 1 - c.val / 16 := by decide

theorem pxpz_x : ∀ c : Dev nD, (px (pz c)).val / 16 = 1 - c.val / 16 := by decide

/-- The source of row `i 0` has x coordinate `i 0 / 512`: it holds the block that row lies in. -/
theorem rowSrc_x (c : Dev nD) (i : S1024x512.Idx) : (rowSrc c i).val / 16 = (i 0).val / 512 := by
  have hi : (i 0).val < 1024 := (i 0).isLt
  have hc : c.val < 32 := c.isLt
  unfold rowSrc
  split
  · next h => exact h.symm
  · next h =>
    split
    · rw [pxpz_x]; omega
    · rw [px_x]; omega

theorem meshBlock_row : ∀ c : Dev nD, ((Layout.meshBlock [2, 4, 4] ![[0], []] c) 0).val = c.val / 16 := by decide
theorem meshBlock_col : ∀ c : Dev nD, ((Layout.meshBlock [2, 4, 4] ![[0], []] c) 1).val = 0 := by decide

theorem blockN_rowSrc (X : (⟨2, ![1024, 512]⟩ : Shape).Idx → EReal) (c : Dev nD) (i : S1024x512.Idx) :
    (Layout.blockN ⟨2, ![512, 512]⟩ ⟨2, ![1024, 512]⟩ (Layout.meshBlock [2, 4, 4] ![[0], []] (rowSrc c i)) X) (loc512 i) = X i := by
  rw [Layout.blockN_apply]
  congr 1
  funext b
  apply Fin.ext
  rw [Layout.TilesN.idx_val]
  match b with
  | ⟨0, _⟩ =>
    show ((Layout.meshBlock [2, 4, 4] ![[0], []] (rowSrc c i)) 0).val * 512 + (i 0).val % 512 = (i 0).val
    rw [meshBlock_row, rowSrc_x]; omega
  | ⟨1, _⟩ =>
    show ((Layout.meshBlock [2, 4, 4] ![[0], []] (rowSrc c i)) 1).val * 512 + (i 1).val = (i 1).val
    rw [meshBlock_col]; omega

/-- Over the extended reals narrowing is the identity: if every device starts with its block of `X`, every result is `X`. -/
theorem outF_eq (m : (ℓ : Loc nD τ sig) → Buf (Elt Ideal) ℓ) (X : (⟨2, ![1024, 512]⟩ : Shape).Idx → EReal)
    (hagree : ∀ c : Dev nD, m ((c.tc : Thread nD τ).loc main_arg0)
      = Layout.blockN ⟨2, ![512, 512]⟩ ⟨2, ![1024, 512]⟩ (Layout.meshBlock [2, 4, 4] ![[0], []] c) X)
    (c : Dev nD) : outF (F := Ideal) m c = X := by
  funext i
  show m (((rowSrc c i).tc : Thread nD τ).loc main_arg0) (loc512 i) = X i
  exact (congrFun (hagree (rowSrc c i)) (loc512 i)).trans (blockN_rowSrc X c i)

end Cert.KernelIdeal.AG

end
-- ==== Proof.SegDefs.lean ====
import proofs.«900690_g7700000000000691_dist_ag_v7x_xyz2x4x4_x_m512_n512_bf16_1_alg».proof.Proof.Sched

noncomputable section

namespace Cert.KernelIdeal.AG

open Cert.KernelIdeal.Gen
open Idealize.ShloMosaic
open Idealize.ShloMosaic.TcCoe
open Idealize.SL.BI
open Idealize.SL.BI.BIBase
open Idealize.ShloMosaic.Rounds

variable {F : FTy → Type} [FloatOps F]

variable (m : (ℓ : Loc nD τ sig) → Buf (Elt F) ℓ) (ρ : Dev nD → PrngReg)

local notation "𝕄" => MT nD τ sig Unit (Elt F) ℕ UU ℕ

def owesE (c : Dev nD) (i : ℕ) : sProp 𝕄 := iprop(∃ W : Waits sig Unit, owes (c : Thread nD τ) (Oat c i) W)

abbrev tok (c : Dev nD) (j : Fin 25) : sProp 𝕄 := dutyTok ER (kcell (pr c j, j)) 0 ()

abbrev pos0 (c : Dev nD) (j : Fin 25) : sProp 𝕄 := atPos ER (kcell (c, j)) 0 ∅ 0
abbrev pos1 (c : Dev nD) (j : Fin 25) : sProp 𝕄 := atPos ER (kcell (c, j)) 1 ∅ 0

abbrev crd (c : Dev nD) (j : Fin 25) : sProp 𝕄 := cred (tallyAt (kcell (c, j)) () (amt j))

abbrev pers (K : Dev nD × Fin 25 → ℕ) : sProp 𝕄 := iprop(records m K ∗ levAts L lv)

def d0val (c : Dev nD) : FVec F S128x512 .bf16 :=
  k0_pay5 ((xM : Memref sig .tc .vmem S512x512 .f32).view.readAt (Elt F)
    (Rect.unit (s := S512x512) ![256, 0] S128x512.size inb_S512x512_S128x512_256_0).toLoadRect (xin m c))

abbrev pt1 := atLaunch (k0_part1 (F := F))
abbrev pt2 := atLaunch (k0_part2 (F := F))
abbrev pt3 := atLaunch (k0_part3 (F := F))
abbrev pt4 := atLaunch (k0_part4 (F := F))
abbrev pt5 := atLaunch (k0_part5 (F := F))
abbrev pt6 := atLaunch (k0_part6 (F := F))
abbrev pt7 := atLaunch (k0_part7 (F := F))
abbrev pt8 := atLaunch (k0_part8 (F := F))
abbrev pt9 := atLaunch (k0_part9 (F := F))
abbrev pt10 := atLaunch (k0_part10 (F := F))
abbrev pt11 := atLaunch (k0_part11 (F := F))

end Cert.KernelIdeal.AG

end
-- ==== Proof.Waits.lean ====
import proofs.«900690_g7700000000000691_dist_ag_v7x_xyz2x4x4_x_m512_n512_bf16_1_alg».proof.Proof.SegDefs

noncomputable section

namespace Cert.KernelIdeal.AG

open Idealize.ShloMosaic
open Idealize.ShloMosaic.TcCoe
open Idealize.SL.BI
open Idealize.SL.BI.BIBase Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

theorem inv_at (K : Dev nD × Fin 25 → ℕ) (ck : Dev nD × Fin 25) :
    (bigSep Finset.univ fun ck : Dev nD × Fin 25 => (cellInv ER (sched m) (K ck) (kcell ck) : sProp 𝕄))
      ⊢ cellInv ER (sched m) (K ck) (kcell ck) :=
  bigSep_elim (Finset.mem_univ ck)

theorem reached_at (ck : Dev nD × Fin 25) :
    (bigSep Finset.univ fun ck : Dev nD × Fin 25 => (reached ER (kcell ck) 0 : sProp 𝕄)) ⊢ reached ER (kcell ck) 0 :=
  bigSep_elim (Finset.mem_univ ck)

section Waits
variable (K : Dev nD × Fin 25 → ℕ) (c : Dev nD)

local notation "WP" => wp frame (wpE (defs₀ (F := F)) 𝒱₀ c none) Set.univ

-- The cell's one duty has the wait's amount, so the wait takes the whole round and its payload comes out.
theorem wait_cell (j : Fin 25) (i : ℕ)
    (hMW : (levAts L lv : sProp 𝕄) ⊢ MayWait (c : Thread nD τ) (csem j) () (Oat c i))
    (sm : SemLoc sig) (hsm : csem j = sm)
    {w : TpuEff nD τ sig (Elt F) Λ₀ .tc PUnit}
    (hw : ∀ K' : PUnit → sProp 𝕄,
      wpE (defs₀ (F := F)) 𝒱₀ (c : Thread nD τ) none Set.univ w K' = waitSpec (c : Thread nD τ) Set.univ sm (amt j) K')
    {α : Type} {Q : α → sProp 𝕄} {k : PUnit → Prog (TpuEff nD τ sig (Elt F) Λ₀ .tc) α} (W : Waits sig Unit) :
    iprop(pers m K ∗ pos0 c j ∗ crd c j ∗ owes (c : Thread nD τ) (Oat c i) W)
      ⊢ iprop(((owes (c : Thread nD τ) (Oat c i) (insert (csem j, ()) W) ∗ pos1 c j ∗ pay m c j) -∗ WP (k ⟨⟩) Q)
          -∗ WP (.op w k) Q) := by
  subst hsm
  unfold pers records
  iintro ⟨⟨⟨#HI, #HRc⟩, #Hlev⟩, Hat, Hc, HO⟩ Hk
  iapply (Rounds.wp_wait_rest_token 𝒱₀ ER (sched m) (c : Thread nD τ) none (κ := K (c, j))
      hw (Set.mem_univ _) () (O := Oat c i) (W := W) (R := 0) (m := 0) (T := ∅)
      (by rw [Nat.zero_add]; exact (expect_cell m c j).symm)) $$ [Hc HO Hat]
  · isplitr; · iapply (inv_at m K (c, j)); iexact HI
    iframe Hc HO
    isplitr; · iapply hMW; iexact Hlev
    iexact Hat
  iintro ⟨HO, Hat, -, Hpay⟩
  ihave Hp := (Entails.of_eq (rest_cell m c j)) $$ Hpay
  iapply Hk
  iframe HO Hat Hp

theorem wait_dma (j : Fin 25) (i : ℕ)
    (hMW : (levAts L lv : sProp 𝕄) ⊢ MayWait (c : Thread nD τ) (csem j) () (Oat c i))
    {q : DmaSem sig} (hq : csem j = .dma q)
    {sp sp' : Space} {s s' : Shape} {e e' : EltTy} {κ' : Kind}
    {src : Memref sig .tc sp' s' e'} {dst : Memref sig κ' sp s e}
    {hsrc : src.view.WordExact} {hdst : dst.view.WordExact}
    (hamt : dst.view.dmaCredit = amt j)
    {α : Type} {Q : α → sProp 𝕄} {k : PUnit → Prog (TpuEff nD τ sig (Elt F) Λ₀ .tc) α} (W : Waits sig Unit) :
    iprop(pers m K ∗ pos0 c j ∗ crd c j ∗ owes (c : Thread nD τ) (Oat c i) W)
      ⊢ iprop(((owes (c : Thread nD τ) (Oat c i) (insert (csem j, ()) W) ∗ pos1 c j ∗ pay m c j) -∗ WP (k ⟨⟩) Q)
          -∗ WP (.op (.waitDma2 q src dst hsrc hdst) k) Q) := by
  refine wait_cell m K c j i hMW (.dma q) hq (w := .waitDma2 q src dst hsrc hdst) (fun K' => ?_) W
  have h := wpE_waitDma2_eq (defs := defs₀ (F := F)) 𝒱₀ (c : Thread nD τ) none Set.univ (sem := q) (src := src) (dst := dst) (hsrc := hsrc) (hdst := hdst) K'
  rw [hamt] at h
  exact h

theorem wait_reg (j : Fin 25) (i : ℕ)
    (hMW : (levAts L lv : sProp 𝕄) ⊢ MayWait (c : Thread nD τ) (csem j) () (Oat c i))
    {sem : Sem sig} (hq : csem j = .reg sem) {n : ℕ} (hn : n = amt j)
    {α : Type} {Q : α → sProp 𝕄} {k : PUnit → Prog (TpuEff nD τ sig (Elt F) Λ₀ .tc) α} (W : Waits sig Unit) :
    iprop(pers m K ∗ pos0 c j ∗ crd c j ∗ owes (c : Thread nD τ) (Oat c i) W)
      ⊢ iprop(((owes (c : Thread nD τ) (Oat c i) (insert (csem j, ()) W) ∗ pos1 c j ∗ pay m c j) -∗ WP (k ⟨⟩) Q)
          -∗ WP (.op (.semWait sem n) k) Q) := by
  subst hn
  exact wait_cell m K c j i hMW (.reg sem) hq (w := .semWait sem (amt j))
    (fun K' => wpE_semWait_eq (defs := defs₀ (F := F)) 𝒱₀ (c : Thread nD τ) none Set.univ K') W

end Waits

end Cert.KernelIdeal.AG

end
-- ==== Proof.Credit.lean ====
import proofs.«900690_g7700000000000691_dist_ag_v7x_xyz2x4x4_x_m512_n512_bf16_1_alg».proof.Proof.Sched

noncomputable section

namespace Cert.KernelIdeal.AG

open Idealize.ShloMosaic
open Idealize.ShloMosaic.TcCoe
open Idealize.SL.BI
open Idealize.SL.BI.BIBase

variable {F : FTy → Type} [FloatOps F]

local notation "𝕄" => MT nD τ sig Unit (Elt F) ℕ UU ℕ

def remoteL : List (Fin 25) := [0, 1, 9, 10, 11, 12, 15, 16, 21, 22, 23, 24]

theorem remoteL_nodup : remoteL.Nodup := by decide
theorem remoteL_toFinset : remoteL.toFinset = remoteJ := by decide

theorem dues_eq (c : Dev nD) : dues c = remoteL.map fun j => (kcell (pr c j, j), amt j) := rfl

theorem kcell_eq_iff {c c' : Dev nD} {j j' : Fin 25} : kcell (c, j) = kcell (c', j') ↔ c = c' ∧ j = j' := by
  constructor
  · intro h
    exact ⟨Fin.ext (congrArg (fun g : GSem nD τ sig => g.1.1.val) h), csem_injective (congrArg Prod.snd h)⟩
  · rintro ⟨rfl, rfl⟩; rfl

theorem Osum_eq_sum (l : List (GSem nD τ sig × ℕ)) : Osum l = (l.map fun x => tallyAt x.1 () x.2).sum := by
  induction l with
  | nil => rfl
  | cons x l ih => rw [Osum_cons, ih, List.map_cons, List.sum_cons, add_comm]

theorem O₀_eq (d : Dev nD) : O₀ d = ∑ j ∈ remoteJ, tallyAt (kcell (pr d j, j)) () (amt j) := by
  rw [← remoteL_toFinset, List.sum_toFinset _ remoteL_nodup]
  show Osum ((dues d).drop 0) = _
  rw [List.drop_zero, Osum_eq_sum, dues_eq, List.map_map]
  rfl

/-- What device `d` owes cell `j` of device `c`: the cell's amount when the cell is a remote one and `d` its payer, else nothing. -/
theorem owed_cell (d c : Dev nD) (j : Fin 25) :
    O₀ d (kcell (c, j)) () = if j ∈ remoteJ then (if d = pr c j then amt j else 0) else 0 := by
  rw [O₀_eq, Finset.sum_apply, Finsupp.finset_sum_apply,
    Finset.sum_congr rfl fun j' _ => tallyAt_apply (kcell (pr d j', j')) () (amt j') (kcell (c, j)) ()]
  have hterm : ∀ j' : Fin 25, (if kcell (c, j) = kcell (pr d j', j') ∧ () = () then amt j' else 0)
      = if j = j' then (if d = pr c j then amt j else 0) else 0 := by
    intro j'
    by_cases hj : j = j'
    · subst hj
      rw [if_pos rfl]
      by_cases hd : d = pr c j
      · subst hd; rw [if_pos rfl, if_pos ⟨by rw [pr_pr], rfl⟩]
      · rw [if_neg hd, if_neg fun h => hd (by rw [(kcell_eq_iff.mp h.1).1, pr_pr])]
    · rw [if_neg hj, if_neg fun h => hj (kcell_eq_iff.mp h.1).2]
  rw [Finset.sum_congr rfl fun j' _ => hterm j', Finset.sum_ite_eq remoteJ j fun _ => if d = pr c j then amt j else 0]

theorem launch_cell (c : Dev nD) (j : Fin 25) (hj : j ∈ remoteJ) :
    tallyOn (kcell (c, j)) (launchCredit (Pipeline.owing O₀) 0 (kcell (c, j))) = (tallyAt (kcell (c, j)) () (amt j) : CellTallies nD τ sig Unit) := by
  unfold tallyAt; refine congrArg _ (Finsupp.ext fun u => ?_); cases u
  rw [Pipeline.launchCredit_owing, Finsupp.single_eq_same,
    Finset.sum_congr rfl fun d _ => (owed_cell d c j).trans (if_pos hj),
    Finset.sum_ite_eq' Finset.univ (pr c j) fun _ => amt j, if_pos (Finset.mem_univ _)]

theorem bigSep_image_inj {I J : Type} [DecidableEq I] {f : J → I} (hf : Function.Injective f) (s : Finset J) (Φ : I → sProp 𝕄) :
    bigSep (s.image f) Φ = bigSep s fun j => Φ (f j) :=
  Finset.fold_image fun _ _ _ _ h => hf h

theorem creds_intro (c : Dev nD) : (Pipeline.launchCred O₀ c : sProp 𝕄) ⊢ creds c := by
  unfold Pipeline.launchCred creds
  refine (bigSep_subset (Finset.subset_univ (remoteJ.image csem))).trans ?_
  rw [bigSep_image_inj csem_injective]
  exact Entails.of_eq (bigSep_congr fun j hj => by rw [← launch_cell c j hj])

theorem Osum_pos {l : List (GSem nD τ sig × ℕ)} {g : GSem nD τ sig} {u : Unit} (h : 0 < Osum l g u) : ∃ x ∈ l, g = x.1 := by
  induction l with
  | nil =>
    rw [Osum_nil, Pi.zero_apply, Finsupp.zero_apply] at h
    exact absurd h (Nat.lt_irrefl 0)
  | cons x l ih =>
    rw [Osum_cons, Pi.add_apply, Finsupp.add_apply, tallyAt_apply] at h
    by_cases hx : g = x.1 ∧ u = ()
    · exact ⟨x, List.mem_cons_self, hx.1⟩
    · rw [if_neg hx, Nat.add_zero] at h
      obtain ⟨y, hy, hg⟩ := ih h
      exact ⟨y, List.mem_cons_of_mem _ hy, hg⟩

def lvJ (j : Fin 25) : ℕ := lv (kcell ((0 : Dev nD), j)) ()

/-- A device may wait on semaphore `s` when every cell it still owes lies strictly above `s`. -/
theorem mayWait_sem (c : Dev nD) (s : SemLoc sig) (i : ℕ) (h : ∀ j' ∈ remoteL.drop i, lv ((c : Thread nD τ), s) () < lvJ j') :
    (levAts L lv : sProp 𝕄) ⊢ MayWait (c : Thread nD τ) s () (Oat c i) :=
  have hd {g u} (hg : 0 < Oat c i g u) : ∃ j' ∈ remoteL.drop i, g = kcell (pr c j', j') := by
    obtain ⟨x, hx, rfl⟩ := Osum_pos hg
    rw [dues_eq, ← List.map_drop] at hx
    obtain ⟨j', hj', rfl⟩ := List.mem_map.mp hx
    exact ⟨j', hj', rfl⟩
  MayOwe.of_cut (L := L) (lev := lv) (lv ((c : Thread nD τ), s) ())
    (fun p hp => by rw [Finset.mem_singleton.mp hp, L_tc]; exact Finset.mem_singleton_self _)
    (fun g u hg => by obtain ⟨j', -, rfl⟩ := hd hg; rw [L_tc]; exact Finset.mem_singleton_self _)
    (fun p hp => by rw [Finset.mem_singleton.mp hp])
    (fun g u hg => by obtain ⟨j', hj', rfl⟩ := hd hg; exact h j' hj')

theorem mayWait_of_table (c : Dev nD) (j : Fin 25) (i : ℕ) (h : ∀ j' ∈ remoteL.drop i, lvJ j < lvJ j') :
    (levAts L lv : sProp 𝕄) ⊢ MayWait (c : Thread nD τ) (csem j) () (Oat c i) :=
  mayWait_sem c (csem j) i h

theorem mayWait_bar (c : Dev nD) : (levAts L lv : sProp 𝕄) ⊢ MayWait (c : Thread nD τ) (csem 0) () (Oat c 2) :=
  mayWait_of_table c 0 2 (by decide)

theorem mayWait_la (c : Dev nD) : (levAts L lv : sProp 𝕄) ⊢ MayWait (c : Thread nD τ) (csem 2) () (Oat c 2) :=
  mayWait_of_table c 2 2 (by decide)
theorem mayWait_lb (c : Dev nD) : (levAts L lv : sProp 𝕄) ⊢ MayWait (c : Thread nD τ) (csem 3) () (Oat c 6) :=
  mayWait_of_table c 3 6 (by decide)
theorem mayWait_lc (c : Dev nD) : (levAts L lv : sProp 𝕄) ⊢ MayWait (c : Thread nD τ) (csem 4) () (Oat c 8) :=
  mayWait_of_table c 4 8 (by decide)

theorem mayWait_pz (c : Dev nD) : (levAts L lv : sProp 𝕄) ⊢ MayWait (c : Thread nD τ) (csem 1) () (Oat c 8) :=
  mayWait_of_table c 1 8 (by decide)

theorem mayWait_afR (c : Dev nD) (k : Fin 4) :
    (levAts L lv : sProp 𝕄) ⊢ MayWait (c : Thread nD τ) (csem ⟨9 + k.val, by have := k.isLt; omega⟩) () (Oat c (8 + k.val)) :=
  mayWait_of_table c _ _ (by revert k; decide)

theorem Oat_12 (c : Dev nD) : Oat c 12 = 0 := rfl

theorem mayWait_stage (c : Dev nD) (O : CellTallies nD τ sig Unit) (hO : O = O₀ c ∨ O = 0) :
    (levAts L lv : sProp 𝕄) ⊢ MayWait (c : Thread nD τ) (.dma (dS 0)) () O := by
  rcases hO with rfl | rfl
  · exact mayWait_sem c _ 0 (by decide : ∀ j' ∈ remoteL, 0 < lvJ j')
  · rw [MayWait_zero]; iintro -; iempintro

end Cert.KernelIdeal.AG

end
-- ==== Proof.Pieces.lean ====
import proofs.«900690_g7700000000000691_dist_ag_v7x_xyz2x4x4_x_m512_n512_bf16_1_alg».proof.Proof.Sched

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

local notation "𝕄" => MT nD τ sig Unit (Elt F) ℕ UU ℕ

-- Row `o` on, `r` rows, all columns: an index lies in the band exactly when its row does.
theorem mem_rows {R C r o : ℕ} {off : Fin 2 → ℕ} {inb}
    (h : off = ![o, 0]) (i : (⟨2, ![R, C]⟩ : Shape).Idx) :
    i ∈ (Rect.unit (s := ⟨2, ![R, C]⟩) off ![r, C] inb).set ↔ o ≤ (i 0).val ∧ (i 0).val < o + r := by
  subst h
  rw [Rect.mem_set_unit, Fin.forall_fin_two]
  have h1 : (i 1).val < C := (i 1).isLt
  exact ⟨fun h => h.1, fun h => ⟨h, Nat.zero_le _, by show (i 1).val < 0 + C; omega⟩⟩

-- A piece of a buffer depends on the contents only on the piece.
theorem pts_congr {sp : Space} {s : Shape} {e : EltTy} (M : Memref sig .tc sp s e) (c : Dev nD)
    (f g : Buf (Elt F) (M.view.loc (c : Thread nD τ))) (h : ∀ i ∈ M.view.set, f i = g i) :
    pts M c f ⊢ pts M c g :=
  Entails.of_eq (Region.is_congr h)

-- Slices of one memref along equal rectangles hold the same piece.
theorem pts_slice_congr {sp : Space} {s : Shape} {e : EltTy} (M : Memref sig .tc sp s e) {R R' : Rect s} (h : R = R')
    (hR : ∀ a, R.stride a = 1) (hR' : ∀ a, R'.stride a = 1) (c : Dev nD) (f : Buf (Elt F) (M.view.loc (c : Thread nD τ))) :
    (pts (M.slice R hR) c f : sProp 𝕄) ⊢ pts (M.slice R' hR') c f := by
  subst h; exact .rfl

variable (c : Dev nD)

theorem mem_slA_iff (k : Fin 4) (i : S1024x512.Idx) :
    i ∈ (slA c k).view.set ↔
      (512 * (c.val / 16) + 32 * k.val + 128) - 128 * ((c.val % 4) % 2) ≤ (i 0).val
        ∧ (i 0).val < (512 * (c.val / 16) + 32 * k.val + 128) - 128 * ((c.val % 4) % 2) + 32 :=
  (Finset.ext_iff.mp (View.set_slice_whole cc0_stg0_0 _) i).trans (mem_rows (Gen.k0_off5_eq c k) i)

theorem mem_slD_iff (k : Fin 2) (i : S1024x512.Idx) :
    i ∈ (slD c k).view.set ↔
      512 * (c.val / 16) + 128 * k.val + 256 ≤ (i 0).val
        ∧ (i 0).val < 512 * (c.val / 16) + 128 * k.val + 256 + 128 :=
  (Finset.ext_iff.mp (View.set_slice_whole cc0_stg0_0 _) i).trans (mem_rows (Gen.k0_off7_eq c k) i)

theorem mem_slK_iff (i : S1024x512.Idx) :
    i ∈ (slK c).view.set ↔
      512 * (c.val / 16) + 128 * ((c.val % 4) % 2) ≤ (i 0).val
        ∧ (i 0).val < 512 * (c.val / 16) + 128 * ((c.val % 4) % 2) + 128 :=
  (Finset.ext_iff.mp (View.set_slice_whole cc0_stg0_0 _) i).trans (mem_rows (Gen.k0_off9_eq c) i)

theorem mem_slF_iff (k : Fin 4) (i : S1024x512.Idx) :
    i ∈ (slF c k).view.set ↔
      (32 * k.val + 640) - (512 * (c.val / 16) + 128 * ((c.val % 4) % 2)) ≤ (i 0).val
        ∧ (i 0).val < (32 * k.val + 640) - (512 * (c.val / 16) + 128 * ((c.val % 4) % 2)) + 32 :=
  (Finset.ext_iff.mp (View.set_slice_whole cc0_stg0_0 _) i).trans (mem_rows (Gen.k0_off10_eq c k) i)

theorem mem_xvA_iff (i : S512x512.Idx) :
    i ∈ (xvA c).view.set ↔ 128 - 128 * ((c.val % 4) % 2) ≤ (i 0).val ∧ (i 0).val < 128 - 128 * ((c.val % 4) % 2) + 128 :=
  (Finset.ext_iff.mp (View.set_slice_whole cc0_scratch0 _) i).trans (mem_rows (Gen.k0_off1_eq c) i)

theorem mem_xvB_iff (i : S512x512.Idx) : i ∈ xvB.view.set ↔ 256 ≤ (i 0).val ∧ (i 0).val < 256 + 256 :=
  (Finset.ext_iff.mp (View.set_slice_whole cc0_scratch0 _) i).trans (mem_rows rfl i)

theorem mem_xvC_iff (i : S512x512.Idx) :
    i ∈ (xvC c).view.set ↔ 128 * ((c.val % 4) % 2) ≤ (i 0).val ∧ (i 0).val < 128 * ((c.val % 4) % 2) + 128 :=
  (Finset.ext_iff.mp (View.set_slice_whole cc0_scratch0 _) i).trans (mem_rows (Gen.k0_off2_eq c) i)

theorem mem_hbA_iff (i : S512x512.Idx) :
    i ∈ (hbA c).view.set ↔ 128 - 128 * ((c.val % 4) % 2) ≤ (i 0).val ∧ (i 0).val < 128 - 128 * ((c.val % 4) % 2) + 128 :=
  (Finset.ext_iff.mp (View.set_slice_whole main_arg0 _) i).trans (mem_rows (Gen.k0_off1_eq c) i)

theorem mem_hbB_iff (i : S512x512.Idx) : i ∈ hbB.view.set ↔ 256 ≤ (i 0).val ∧ (i 0).val < 256 + 256 :=
  (Finset.ext_iff.mp (View.set_slice_whole main_arg0 _) i).trans (mem_rows rfl i)

theorem mem_hbC_iff (i : S512x512.Idx) :
    i ∈ (hbC c).view.set ↔ 128 * ((c.val % 4) % 2) ≤ (i 0).val ∧ (i 0).val < 128 * ((c.val % 4) % 2) + 128 :=
  (Finset.ext_iff.mp (View.set_slice_whole main_arg0 _) i).trans (mem_rows (Gen.k0_off2_eq c) i)

theorem pts_slF_slA (k : Fin 4) (f : S1024x512.Idx → Elt F .bf16) :
    (pts (slF c k) c f : sProp 𝕄) ⊢ pts (slA (px c) k) c f :=
  pts_slice_congr oM (Rect.unit_congr (off5_px c k).symm _ _) _ _ c f

theorem pts_slA_slF (k : Fin 4) (f : S1024x512.Idx → Elt F .bf16) :
    (pts (slA (px c) k) c f : sProp 𝕄) ⊢ pts (slF c k) c f :=
  pts_slice_congr oM (Rect.unit_congr (off5_px c k) _ _) _ _ c f

theorem px_half : ∀ c : Dev nD, (px c).val / 16 = 1 - c.val / 16 := by decide
theorem px_par : ∀ c : Dev nD, ((px c).val % 4) % 2 = (c.val % 4) % 2 := by decide
theorem pz_half : ∀ c : Dev nD, (pz c).val / 16 = c.val / 16 := by decide
theorem pz_par : ∀ c : Dev nD, ((pz c).val % 4) % 2 = 1 - (c.val % 4) % 2 := by decide

-- A set cut out by `P` put before a tiled set cut out by an incompatible `Q`: the union is cut out by `P ∨ Q` and is tiled.
theorem tile {ℓ : Loc nD τ sig} {A B : Finset (Idx ℓ)} {P Q : Idx ℓ → Prop} {X : sProp 𝕄} {f : Buf (Elt F) ℓ}
    (hB : (∀ i, i ∈ B ↔ Q i) ∧ ((ℓ ↦[B]{fullShare} f : sProp 𝕄) ⊣⊢ X)) (hA : ∀ i, i ∈ A ↔ P i)
    (hd : ∀ i, P i → Q i → False) :
    (∀ i, i ∈ A ∪ B ↔ P i ∨ Q i) ∧ ((ℓ ↦[A ∪ B]{fullShare} f : sProp 𝕄) ⊣⊢ iprop((ℓ ↦[A]{fullShare} f) ∗ X)) :=
  ⟨fun i => Finset.mem_union.trans (or_congr (hA i) (hB.1 i)),
    (Region.is_union (Finset.disjoint_left.mpr fun i hi hj => hd i ((hA i).mp hi) ((hB.1 i).mp hj))).trans
      (sep_congr_right hB.2)⟩

theorem tile_one (ℓ : Loc nD τ sig) (f : Buf (Elt F) ℓ) {A : Finset (Idx ℓ)} {P : Idx ℓ → Prop} (hA : ∀ i, i ∈ A ↔ P i) :
    (∀ i, i ∈ A ↔ P i) ∧ ((ℓ ↦[A]{fullShare} f : sProp 𝕄) ⊣⊢ (ℓ ↦[A]{fullShare} f)) := ⟨hA, .rfl⟩

-- A tiled set that every index belongs to is the whole buffer.
theorem tile_whole {ℓ : Loc nD τ sig} {A : Finset (Idx ℓ)} {P : Idx ℓ → Prop} {X : sProp 𝕄} {f : Buf (Elt F) ℓ}
    (h : (∀ i, i ∈ A ↔ P i) ∧ ((ℓ ↦[A]{fullShare} f : sProp 𝕄) ⊣⊢ X)) (hc : ∀ i, P i) :
    (ℓ ↦{fullShare} f : sProp 𝕄) ⊣⊢ X :=
  (BiEntails.of_eq (congrArg (fun S => (ℓ ↦[S]{fullShare} f : sProp 𝕄))
    (Finset.ext fun i => ⟨fun _ => (h.1 i).mpr (hc i), fun _ => Finset.mem_univ i⟩))).trans h.2

section
variable (f : Buf (Elt F) ((c : Thread nD τ).loc cc0_stg0_0))

def outPieces : sProp 𝕄 :=
  iprop(pts (slA c 0) c f ∗ pts (slA c 1) c f ∗ pts (slA c 2) c f ∗ pts (slA c 3) c f
    ∗ pts (slD c 0) c f ∗ pts (slD c 1) c f ∗ pts (slK c) c f
    ∗ pts (slA (px c) 0) c f ∗ pts (slA (px c) 1) c f ∗ pts (slA (px c) 2) c f ∗ pts (slA (px c) 3) c f
    ∗ pts (slD (px c) 0) c f ∗ pts (slD (px c) 1) c f
    ∗ pts (slF (pz c) 0) c f ∗ pts (slF (pz c) 1) c f ∗ pts (slF (pz c) 2) c f ∗ pts (slF (pz c) 3) c f)

-- The seventeen bands cover the 1024 rows, and each misses all the later ones.
theorem out_iff :
    (((c : Thread nD τ).loc cc0_stg0_0) ↦{fullShare} f : sProp 𝕄) ⊣⊢ outPieces c f := by
  have hc : c.val < 32 := c.isLt
  have hA := mem_slA_iff (px c); have hD := mem_slD_iff (px c); have hF := mem_slF_iff (pz c)
  rw [px_half, px_par] at hA; rw [px_half] at hD; rw [pz_half, pz_par] at hF
  have t := tile_one _ f (hF 3)
  have t := tile t (hF 2) fun i p q => by omega
  have t := tile t (hF 1) fun i p q => by omega
  have t := tile t (hF 0) fun i p q => by omega
  have t := tile t (hD 1) fun i p q => by omega
  have t := tile t (hD 0) fun i p q => by omega
  have t := tile t (hA 3) fun i p q => by omega
  have t := tile t (hA 2) fun i p q => by omega
  have t := tile t (hA 1) fun i p q => by omega
  have t := tile t (hA 0) fun i p q => by omega
  have t := tile t (mem_slK_iff c) fun i p q => by omega
  have t := tile t (mem_slD_iff c 1) fun i p q => by omega
  have t := tile t (mem_slD_iff c 0) fun i p q => by omega
  have t := tile t (mem_slA_iff c 3) fun i p q => by omega
  have t := tile t (mem_slA_iff c 2) fun i p q => by omega
  have t := tile t (mem_slA_iff c 1) fun i p q => by omega
  have t := tile t (mem_slA_iff c 0) fun i p q => by omega
  exact tile_whole t fun i => by have h0 : (i 0).val < 1024 := (i 0).isLt; omega

theorem out_split :
    (((c : Thread nD τ).loc cc0_stg0_0) ↦{fullShare} f : sProp 𝕄) ⊢ outPieces c f := (out_iff c f).mp

theorem out_join :
    outPieces c f ⊢ (((c : Thread nD τ).loc cc0_stg0_0) ↦{fullShare} f : sProp 𝕄) := (out_iff c f).mpr

end

section
variable (f : Buf (Elt F) ((c : Thread nD τ).loc cc0_scratch0))

-- The forwarded quarter, the lower half and the kept quarter tile the 512 rows of a block.
theorem xv_iff :
    ((c : Thread nD τ).loc cc0_scratch0 ↦{fullShare} f : sProp 𝕄)
      ⊣⊢ iprop(pts (xvA c) c f ∗ pts xvB c f ∗ pts (xvC c) c f) := by
  have t := tile (tile_one _ f (mem_xvC_iff c)) mem_xvB_iff fun i p q => by omega
  have t := tile t (mem_xvA_iff c) fun i p q => by omega
  exact tile_whole t fun i => by have h0 : (i 0).val < 512 := (i 0).isLt; omega

theorem xv_split :
    ((c : Thread nD τ).loc cc0_scratch0 ↦{fullShare} f : sProp 𝕄)
      ⊢ iprop(pts (xvA c) c f ∗ pts xvB c f ∗ pts (xvC c) c f) := (xv_iff c f).mp

theorem xv_join :
    iprop(pts (xvA c) c f ∗ pts xvB c f ∗ pts (xvC c) c f)
      ⊢ ((c : Thread nD τ).loc cc0_scratch0 ↦{fullShare} f : sProp 𝕄) := (xv_iff c f).mpr

end

section
variable (f : Buf (Elt F) ((c : Thread nD τ).loc main_arg0))

theorem hbm_iff :
    ((c : Thread nD τ).loc main_arg0 ↦{fullShare} f : sProp 𝕄)
      ⊣⊢ iprop(pts (hbA c) c f ∗ pts hbB c f ∗ pts (hbC c) c f) := by
  have t := tile (tile_one _ f (mem_hbC_iff c)) mem_hbB_iff fun i p q => by omega
  have t := tile t (mem_hbA_iff c) fun i p q => by omega
  exact tile_whole t fun i => by have h0 : (i 0).val < 512 := (i 0).isLt; omega

theorem hbm_split :
    ((c : Thread nD τ).loc main_arg0 ↦{fullShare} f : sProp 𝕄)
      ⊢ iprop(pts (hbA c) c f ∗ pts hbB c f ∗ pts (hbC c) c f) := (hbm_iff c f).mp

theorem hbm_join :
    iprop(pts (hbA c) c f ∗ pts hbB c f ∗ pts (hbC c) c f)
      ⊢ ((c : Thread nD τ).loc main_arg0 ↦{fullShare} f : sProp 𝕄) := (hbm_iff c f).mpr

end

end Cert.KernelIdeal.AG

end
-- ==== Proof.Vals.lean ====
import proofs.«900690_g7700000000000691_dist_ag_v7x_xyz2x4x4_x_m512_n512_bf16_1_alg».proof.Proof.Pieces
import Idealize.ShloMosaic.Lib.Pipeline.Value

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

variable (m : (ℓ : Loc nD τ sig) → Buf (Elt F) ℓ) (c : Dev nD)

local notation "𝕄" => MT nD τ sig Unit (Elt F) ℕ UU ℕ

-- Writing through a view what the view reads off other contents leaves those contents under the view.
private theorem vwrite_read {sp : Space} {s : Shape} {e : EltTy} (v : View sig .tc sp s e)
    (f g : v.ty.Contents (Elt F)) : ∀ i ∈ v.set, v.write (Elt F) f (v.read (Elt F) g) Finset.univ i = g i := by
  intro i hi
  obtain ⟨y, rfl⟩ := View.exists_emb_of_mem_set v hi
  rw [View.write_emb_of_mem _ _ (Finset.mem_univ y), View.read_apply, cast_cast, cast_eq]

-- Entry `y` of a unit-stride band sits at the band's offset plus `y`, on each axis.
private theorem band_emb {d sz off : Fin 2 → ℕ} {inb}
    (y : (Rect.unit (s := ⟨2, d⟩) off sz inb).shape.Idx) (a : Fin 2) :
    (((Rect.unit (s := ⟨2, d⟩) off sz inb).emb y a : Fin _) : ℕ) = off a + (y a).val := by
  rw [Rect.emb_apply]; show off a + 1 * (y a).val = _; omega

-- Rows of the device's own half outside the x-partner's kept band come from the device itself on both devices.
private theorem outF_px (i : S1024x512.Idx) (h : (i 0).val / 512 = c.val / 16)
    (hb : ¬ (128 * ((c.val % 4) % 2) ≤ (i 0).val % 512 ∧ (i 0).val % 512 < 128 * ((c.val % 4) % 2) + 128)) :
    outF m c i = outF m (px c) i := by
  have hc : c.val < 32 := c.isLt
  unfold outF rowSrc
  rw [px_half, px_par, if_pos h, if_neg (show ¬ (i 0).val / 512 = 1 - c.val / 16 by omega), if_neg hb, px_px]

-- The forwarded rows come from the x-partner; for the z-partner they are its kept band, from its own z-partner's x-partner.
private theorem outF_slF (k : Fin 4) : ∀ i ∈ (slF c k).view.set, outF m c i = outF m (pz c) i := by
  intro i hi
  have hr := (mem_slF_iff c k i).mp hi
  have hc : c.val < 32 := c.isLt
  have hk : k.val < 4 := k.isLt
  have hi0 : (i 0).val < 1024 := (i 0).isLt
  have h1 : ¬ (i 0).val / 512 = c.val / 16 := by omega
  unfold outF rowSrc
  rw [pz_half, pz_par, pz_pz, if_neg h1, if_neg h1,
    if_neg (show ¬ (128 * ((c.val % 4) % 2) ≤ (i 0).val % 512 ∧ (i 0).val % 512 < 128 * ((c.val % 4) % 2) + 128) by omega),
    if_pos (show 128 * (1 - (c.val % 4) % 2) ≤ (i 0).val % 512 ∧ (i 0).val % 512 < 128 * (1 - (c.val % 4) % 2) + 128 by omega)]

private theorem pay_rcvA (k : Fin 4) : pay m c ⟨9 + k.val, by omega⟩ = pts (slA (px c) k) c (outF m c) := by
  fin_cases k <;> rfl
private theorem pay_rcvD (k : Fin 2) : pay m c ⟨15 + k.val, by omega⟩ = pts (slD (px c) k) c (outF m c) := by
  fin_cases k <;> rfl
private theorem pay_rcvF (k : Fin 4) : pay m c ⟨21 + k.val, by omega⟩ = pts (slF (pz c) k) c (outF m c) := by
  fin_cases k <;> rfl

theorem srcA_pay (k : Fin 4) :
    (pts (slA c k) c (outF m c) : sProp 𝕄) ⊢ (sched m).payload (kcell (c, ⟨5 + k.val, by omega⟩)) 0 () := by
  rw [payload_cell]; fin_cases k <;> exact .rfl

theorem srcD_pay (k : Fin 2) :
    (pts (slD c k) c (outF m c) : sProp 𝕄) ⊢ (sched m).payload (kcell (c, ⟨13 + k.val, by omega⟩)) 0 () := by
  rw [payload_cell]; fin_cases k <;> exact .rfl

theorem srcF_pay (k : Fin 4) :
    (pts (slF c k) c (outF m c) : sProp 𝕄) ⊢ (sched m).payload (kcell (c, ⟨17 + k.val, by omega⟩)) 0 () := by
  rw [payload_cell]; fin_cases k <;> exact .rfl

-- A piece of the partner's buffer overwritten with the device's own piece holds the partner's final contents, where both results agree.
private theorem send_pay (p : Dev nD) (R : Rect S1024x512) (hR : ∀ a, R.stride a = 1) (j : Fin 25)
    (fd : Buf (Elt F) ((oM.slice R hR).view.loc (p : Thread nD τ)))
    (hj : pay m p j = pts (oM.slice R hR) p (outF m p)) (hv : ∀ i ∈ (oM.slice R hR).view.set, outF m c i = outF m p i) :
    ((oM.slice R hR).view.loc (p : Thread nD τ) ↦[(oM.slice R hR).view.set]{fullShare}
        ((oM.slice R hR).view.write (Elt F) fd ((oM.slice R hR).view.read (Elt F) (outF m c)) Finset.univ) : sProp 𝕄)
      ⊢ (sched m).payload (kcell (p, j)) 0 () := by
  rw [payload_cell, hj]
  exact pts_congr (oM.slice R hR) p _ _ fun i hi => (vwrite_read _ fd (outF m c) i hi).trans (hv i hi)

theorem sendA_pay (k : Fin 4) (fd : Buf (Elt F) ((slA c k).view.loc ((px c : Dev nD) : Thread nD τ))) :
    ((slA c k).view.loc ((px c : Dev nD) : Thread nD τ) ↦[(slA c k).view.set]{fullShare}
        ((slA c k).view.write (Elt F) fd ((slA c k).view.read (Elt F) (outF m c)) Finset.univ) : sProp 𝕄)
      ⊢ (sched m).payload (kcell (px c, ⟨9 + k.val, by omega⟩)) 0 () :=
  send_pay m c (px c) _ _ _ fd (by rw [pay_rcvA, px_px]) fun i hi => by
    have hr := (mem_slA_iff c k i).mp hi; have hk := k.isLt
    exact outF_px m c i (by omega) (by omega)

theorem sendD_pay (k : Fin 2) (fd : Buf (Elt F) ((slD c k).view.loc ((px c : Dev nD) : Thread nD τ))) :
    ((slD c k).view.loc ((px c : Dev nD) : Thread nD τ) ↦[(slD c k).view.set]{fullShare}
        ((slD c k).view.write (Elt F) fd ((slD c k).view.read (Elt F) (outF m c)) Finset.univ) : sProp 𝕄)
      ⊢ (sched m).payload (kcell (px c, ⟨15 + k.val, by omega⟩)) 0 () :=
  send_pay m c (px c) _ _ _ fd (by rw [pay_rcvD, px_px]) fun i hi => by
    have hr := (mem_slD_iff c k i).mp hi; have hk := k.isLt
    exact outF_px m c i (by omega) (by omega)

theorem sendF_pay (k : Fin 4) (fd : Buf (Elt F) ((slF c k).view.loc ((pz c : Dev nD) : Thread nD τ))) :
    ((slF c k).view.loc ((pz c : Dev nD) : Thread nD τ) ↦[(slF c k).view.set]{fullShare}
        ((slF c k).view.write (Elt F) fd ((slF c k).view.read (Elt F) (outF m c)) Finset.univ) : sProp 𝕄)
      ⊢ (sched m).payload (kcell (pz c, ⟨21 + k.val, by omega⟩)) 0 () :=
  send_pay m c (pz c) _ _ _ fd (by rw [pay_rcvF, pz_pz]) (outF_slF m c k)

-- Two pieces that are the same band of rows of two buffers of one type: writing one with what the other reads gives the contents read.
private theorem copy_val (R : Rect S512x512) (hR : ∀ a, R.stride a = 1)
    (fd : Buf (Elt F) ((xM.slice R hR).view.loc (c : Thread nD τ))) (g : S512x512.Idx → Elt F .f32) :
    ∀ i ∈ (xM.slice R hR).view.set,
      (xM.slice R hR).view.write (Elt F) fd ((hM.slice R hR).view.read (Elt F) g) Finset.univ i = g i := by
  intro i hi
  obtain ⟨y, rfl⟩ := View.exists_emb_of_mem_set _ hi
  rw [View.write_emb_of_mem _ _ (Finset.mem_univ y), View.read_apply, cast_cast, cast_eq]
  rfl

theorem copyA_pay (fd : Buf (Elt F) ((xvA c).view.loc (c : Thread nD τ))) :
    iprop(((xvA c).view.loc (c : Thread nD τ) ↦[(xvA c).view.set]{fullShare}
          ((xvA c).view.write (Elt F) fd ((hbA c).view.read (Elt F) (xin m c)) Finset.univ))
        ∗ ((hbA c).view.loc (c : Thread nD τ) ↦[(hbA c).view.set]{fullShare} xin m c))
      ⊢ ((sched m).payload (kcell (c, 2)) 0 () : sProp 𝕄) := by
  rw [payload_cell]
  exact sep_mono_left (pts_congr (xvA c) c _ _ (copy_val c _ _ fd (xin m c)))

theorem copyB_pay (fd : Buf (Elt F) (xvB.view.loc (c : Thread nD τ))) :
    iprop((xvB.view.loc (c : Thread nD τ) ↦[xvB.view.set]{fullShare}
          (xvB.view.write (Elt F) fd (hbB.view.read (Elt F) (xin m c)) Finset.univ))
        ∗ (hbB.view.loc (c : Thread nD τ) ↦[hbB.view.set]{fullShare} xin m c))
      ⊢ ((sched m).payload (kcell (c, 3)) 0 () : sProp 𝕄) := by
  rw [payload_cell]
  exact sep_mono_left (pts_congr xvB c _ _ (copy_val c _ _ fd (xin m c)))

theorem copyC_pay (fd : Buf (Elt F) ((xvC c).view.loc (c : Thread nD τ))) :
    iprop(((xvC c).view.loc (c : Thread nD τ) ↦[(xvC c).view.set]{fullShare}
          ((xvC c).view.write (Elt F) fd ((hbC c).view.read (Elt F) (xin m c)) Finset.univ))
        ∗ ((hbC c).view.loc (c : Thread nD τ) ↦[(hbC c).view.set]{fullShare} xin m c))
      ⊢ ((sched m).payload (kcell (c, 4)) 0 () : sProp 𝕄) := by
  rw [payload_cell]
  exact sep_mono_left (pts_congr (xvC c) c _ _ (copy_val c _ _ fd (xin m c)))

-- Rows `o₄ + t` of the result come from the device itself and are rows `o₃ + t` of its block.
private theorem store_val {sz off4 off5 off3 : Fin 2 → ℕ} {inb4}
    {inb5} {inb3} {o4 o3 : ℕ} (n : ℕ)
    (h45 : off4 = off5) (h4 : off4 = ![o4, 0]) (h3 : off3 = ![o3, 0]) (hn : sz 0 = n)
    (hsrc : ∀ t < n, (o4 + t) / 512 = c.val / 16) (hloc : ∀ t < n, (o4 + t) % 512 = o3 + t)
    (f : Buf (Elt F) ((oM.access (Rect.unit (s := S1024x512) off4 sz inb4)).loc (c : Thread nD τ))) :
    ∀ i ∈ (oM.slice (Rect.unit (s := S1024x512) off5 sz inb5) fun _ => rfl).view.set,
      (oM.access (Rect.unit (s := S1024x512) off4 sz inb4)).write (Elt F) f
        (truncf .bf16 (xM.view.readAt (Elt F) (Rect.unit (s := S512x512) off3 sz inb3).toLoadRect (xin m c))
          bitsLt_bf16_f32) Finset.univ i = outF m c i := by
  subst h45 hn
  intro i hi
  obtain ⟨y, rfl⟩ := View.exists_emb_of_mem_set (oM.access (Rect.unit (s := S1024x512) off4 sz inb4)) hi
  rw [View.write_emb_of_mem _ _ (Finset.mem_univ y)]
  have hy : (y 0).val < sz 0 := (y 0).isLt
  have e4 := band_emb (d := ![1024, 512]) (inb := inb4) y
  have e3 := band_emb (d := ![512, 512]) (inb := inb3) y
  subst h4 h3
  have hs : rowSrc c ((oM.access (Rect.unit (s := S1024x512) ![o4, 0] sz inb4)).emb y) = c :=
    if_pos ((congrArg (· / 512) (e4 0)).trans (hsrc _ hy))
  have hl : loc512 ((oM.access (Rect.unit (s := S1024x512) ![o4, 0] sz inb4)).emb y)
      = (Rect.unit (s := S512x512) ![o3, 0] sz inb3).emb y := by
    funext a; apply Fin.ext
    match a with
    | ⟨0, _⟩ => exact ((congrArg (· % 512) (e4 0)).trans (hloc _ hy)).trans (e3 0).symm
    | ⟨1, _⟩ => exact (e4 1).trans (e3 1).symm
  unfold outF
  rw [hs, hl]
  rfl

-- A band of rows inside another band of one buffer: a load of the one reads inside the piece of the other.
private theorem load_sub {off sz off' sz' : Fin 2 → ℕ} {inb}
    {inb'} {o o' : ℕ} (h : off = ![o, 0]) (h' : off' = ![o', 0])
    (hlo : o' ≤ o) (hhi : o + sz 0 ≤ o' + sz' 0) (hc : sz 1 ≤ sz' 1) :
    xM.view.setOn (Rect.unit (s := S512x512) off sz inb).toLoadRect.set
      ⊆ (xM.slice (Rect.unit (s := S512x512) off' sz' inb') fun _ => rfl).view.set := by
  subst h h'
  refine Finset.Subset.trans (Finset.map_subset_map.mpr fun i hi => ?_) (View.set_slice xM.view _).symm.subset
  rw [Rect.mem_set_unit, Fin.forall_fin_two] at hi ⊢
  exact ⟨⟨le_trans hlo hi.1.1, lt_of_lt_of_le hi.1.2 hhi⟩, Nat.zero_le _, lt_of_lt_of_le hi.2.2 (Nat.add_le_add_left hc 0)⟩

-- An access at offsets equal to a piece's goes through the piece's elements, as a store and as a load.
private theorem acc_sub {sz off off' : Fin 2 → ℕ} {inb}
    {inb'} (h : off = off') :
    (oM.access (Rect.unit (s := S1024x512) off sz inb)).setOn Finset.univ
        ⊆ (oM.slice (Rect.unit (s := S1024x512) off' sz inb') fun _ => rfl).view.set
      ∧ oM.view.setOn (Rect.unit (s := S1024x512) off sz inb).toLoadRect.set
        ⊆ (oM.slice (Rect.unit (s := S1024x512) off' sz inb') fun _ => rfl).view.set := by
  subst h; exact ⟨Finset.Subset.refl _, (View.set_slice _ _).symm.subset⟩

theorem accA_store_sub (k : Fin 4) :
    (oM.access (Rect.unit (s := S1024x512) (k0_off4 c (w32 k)) S32x512.size (k0_off4_inb c k))).setOn Finset.univ
      ⊆ (slA c k).view.set := (acc_sub (off4_eq_off5 c k)).1
theorem accA_load_sub (k : Fin 4) :
    oM.view.setOn (Rect.unit (s := S1024x512) (k0_off4 c (w32 k)) S32x512.size (k0_off4_inb c k)).toLoadRect.set
      ⊆ (slA c k).view.set := (acc_sub (off4_eq_off5 c k)).2
theorem accD_store_sub (k : Fin 2) :
    (oM.access (Rect.unit (s := S1024x512) (k0_off6 c (w128 k)) S128x512.size (k0_off6_inb c k))).setOn Finset.univ
      ⊆ (slD c k).view.set := (acc_sub (off6_eq_off7 c k)).1
theorem accD_load_sub (k : Fin 2) :
    oM.view.setOn (Rect.unit (s := S1024x512) (k0_off6 c (w128 k)) S128x512.size (k0_off6_inb c k)).toLoadRect.set
      ⊆ (slD c k).view.set := (acc_sub (off6_eq_off7 c k)).2
theorem accK_store_sub :
    (oM.access (Rect.unit (s := S1024x512) (k0_off9 c) S128x512.size (k0_off9_inb c))).setOn Finset.univ
      ⊆ (slK c).view.set := (acc_sub rfl).1
theorem accK_load_sub :
    oM.view.setOn (Rect.unit (s := S1024x512) (k0_off9 c) S128x512.size (k0_off9_inb c)).toLoadRect.set
      ⊆ (slK c).view.set := (acc_sub rfl).2

theorem loadA_sub (k : Fin 4) :
    xM.view.setOn (Rect.unit (s := S512x512) (k0_off3 c (w32 k)) S32x512.size (k0_off3_inb c k)).toLoadRect.set
      ⊆ (xvA c).view.set := by
  have hc : c.val < 32 := c.isLt
  have hk : k.val < 4 := k.isLt
  exact load_sub (Gen.k0_off3_eq c k) (Gen.k0_off1_eq c) (by omega)
    (show (32 * k.val + 128) - 128 * ((c.val % 4) % 2) + 32 ≤ 128 - 128 * ((c.val % 4) % 2) + 128 by omega) le_rfl

theorem loadD0_sub :
    xM.view.setOn (Rect.unit (s := S512x512) ![256, 0] S128x512.size inb_S512x512_S128x512_256_0).toLoadRect.set
      ⊆ xvB.view.set :=
  load_sub rfl rfl le_rfl (show 256 + 128 ≤ 256 + 256 by omega) le_rfl
theorem loadD1_sub :
    xM.view.setOn (Rect.unit (s := S512x512) ![384, 0] S128x512.size inb_S512x512_S128x512_384_0).toLoadRect.set
      ⊆ xvB.view.set :=
  load_sub rfl rfl (show 256 ≤ 384 by omega) (show 384 + 128 ≤ 256 + 256 by omega) le_rfl

theorem loadK_sub :
    xM.view.setOn (Rect.unit (s := S512x512) (k0_off8 c) S128x512.size (k0_off8_inb c)).toLoadRect.set
      ⊆ (xvC c).view.set :=
  load_sub (Gen.k0_off8_eq c) (Gen.k0_off2_eq c) le_rfl le_rfl le_rfl

theorem storeA_val (k : Fin 4)
    (f : Buf (Elt F) ((oM.access (Rect.unit (s := S1024x512) (k0_off4 c (w32 k)) S32x512.size (k0_off4_inb c k))).loc
      (c : Thread nD τ))) :
    ∀ i ∈ (slA c k).view.set,
      (oM.access (Rect.unit (s := S1024x512) (k0_off4 c (w32 k)) S32x512.size (k0_off4_inb c k))).write (Elt F) f
        (truncf .bf16 (xM.view.readAt (Elt F)
          (Rect.unit (s := S512x512) (k0_off3 c (w32 k)) S32x512.size (k0_off3_inb c k)).toLoadRect (xin m c))
          bitsLt_bf16_f32) Finset.univ i = outF m c i := by
  have hk : k.val < 4 := k.isLt
  exact store_val m c 32 (off4_eq_off5 c k) (Gen.k0_off4_eq c k) (Gen.k0_off3_eq c k) rfl
    (fun t ht => by omega) (fun t ht => by omega) f

theorem storeA_pts (k : Fin 4)
    (f : Buf (Elt F) ((oM.access (Rect.unit (s := S1024x512) (k0_off4 c (w32 k)) S32x512.size (k0_off4_inb c k))).loc
      (c : Thread nD τ))) :
    ((oM.access (Rect.unit (s := S1024x512) (k0_off4 c (w32 k)) S32x512.size (k0_off4_inb c k))).loc (c : Thread nD τ)
        ↦[(slA c k).view.set]{fullShare}
      ((oM.access (Rect.unit (s := S1024x512) (k0_off4 c (w32 k)) S32x512.size (k0_off4_inb c k))).write (Elt F) f
        (truncf .bf16 (xM.view.readAt (Elt F)
          (Rect.unit (s := S512x512) (k0_off3 c (w32 k)) S32x512.size (k0_off3_inb c k)).toLoadRect (xin m c))
          bitsLt_bf16_f32) Finset.univ) : sProp 𝕄)
      ⊢ pts (slA c k) c (outF m c) :=
  Entails.of_eq (Region.is_congr (storeA_val m c k f))

theorem storeD0_pts
    (f : Buf (Elt F) ((oM.access (Rect.unit (s := S1024x512) (k0_off6 c (w128 0)) S128x512.size (k0_off6_inb c 0))).loc
      (c : Thread nD τ))) :
    ((oM.access (Rect.unit (s := S1024x512) (k0_off6 c (w128 0)) S128x512.size (k0_off6_inb c 0))).loc (c : Thread nD τ)
        ↦[(slD c 0).view.set]{fullShare}
      ((oM.access (Rect.unit (s := S1024x512) (k0_off6 c (w128 0)) S128x512.size (k0_off6_inb c 0))).write (Elt F) f
        (truncf .bf16 (xM.view.readAt (Elt F)
          (Rect.unit (s := S512x512) ![256, 0] S128x512.size inb_S512x512_S128x512_256_0).toLoadRect (xin m c))
          bitsLt_bf16_f32) Finset.univ) : sProp 𝕄)
      ⊢ pts (slD c 0) c (outF m c) :=
  Entails.of_eq (Region.is_congr (store_val m c 128 (off6_eq_off7 c 0) (Gen.k0_off6_eq c 0) rfl rfl
    (fun t ht => by omega) (fun t ht => by omega) f))

theorem storeD1_pts
    (f : Buf (Elt F) ((oM.access (Rect.unit (s := S1024x512) (k0_off6 c (w128 1)) S128x512.size (k0_off6_inb c 1))).loc
      (c : Thread nD τ))) :
    ((oM.access (Rect.unit (s := S1024x512) (k0_off6 c (w128 1)) S128x512.size (k0_off6_inb c 1))).loc (c : Thread nD τ)
        ↦[(slD c 1).view.set]{fullShare}
      ((oM.access (Rect.unit (s := S1024x512) (k0_off6 c (w128 1)) S128x512.size (k0_off6_inb c 1))).write (Elt F) f
        (truncf .bf16 (xM.view.readAt (Elt F)
          (Rect.unit (s := S512x512) ![384, 0] S128x512.size inb_S512x512_S128x512_384_0).toLoadRect (xin m c))
          bitsLt_bf16_f32) Finset.univ) : sProp 𝕄)
      ⊢ pts (slD c 1) c (outF m c) :=
  Entails.of_eq (Region.is_congr (store_val m c 128 (off6_eq_off7 c 1) (Gen.k0_off6_eq c 1) rfl rfl
    (fun t ht => by omega) (fun t ht => by omega) f))

theorem storeK_pts
    (f : Buf (Elt F) ((oM.access (Rect.unit (s := S1024x512) (k0_off9 c) S128x512.size (k0_off9_inb c))).loc
      (c : Thread nD τ))) :
    ((oM.access (Rect.unit (s := S1024x512) (k0_off9 c) S128x512.size (k0_off9_inb c))).loc (c : Thread nD τ)
        ↦[(slK c).view.set]{fullShare}
      ((oM.access (Rect.unit (s := S1024x512) (k0_off9 c) S128x512.size (k0_off9_inb c))).write (Elt F) f
        (truncf .bf16 (xM.view.readAt (Elt F)
          (Rect.unit (s := S512x512) (k0_off8 c) S128x512.size (k0_off8_inb c)).toLoadRect (xin m c))
          bitsLt_bf16_f32) Finset.univ) : sProp 𝕄)
      ⊢ pts (slK c) c (outF m c) :=
  Entails.of_eq (Region.is_congr (store_val m c 128 rfl (Gen.k0_off9_eq c) (Gen.k0_off8_eq c) rfl
    (fun t ht => by omega) (fun t ht => by omega) f))

end Cert.KernelIdeal.AG

end
-- ==== Proof.Part12.lean ====
import proofs.«900690_g7700000000000691_dist_ag_v7x_xyz2x4x4_x_m512_n512_bf16_1_alg».proof.Proof.Waits
import proofs.«900690_g7700000000000691_dist_ag_v7x_xyz2x4x4_x_m512_n512_bf16_1_alg».proof.Proof.Credit
import proofs.«900690_g7700000000000691_dist_ag_v7x_xyz2x4x4_x_m512_n512_bf16_1_alg».proof.Proof.Vals

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

variable (K : Dev nD × Fin 25 → ℕ) (c : Dev nD)

local notation "WP" => wp frame (wpE (defs₀ (F := F)) 𝒱₀ c none) Set.univ

private theorem mem_duties (c : Dev nD) (j : Fin 25) : () ∈ (sched (F := F) m).duties (kcell (c, j)) 0 := by
  rw [duties_cell]; exact Finset.mem_singleton_self _

-- Every cell's invariant and round-0 mark are among the records every part keeps.
private theorem pers_cell (ck : Dev nD × Fin 25) :
    pers m K ⊢ iprop(□ (cellInv ER (sched m) (K ck) (kcell ck) ∗ reached ER (kcell ck) 0)) := by
  unfold pers records
  iintro ⟨⟨#HI, #HR⟩, -⟩
  imodintro
  isplitr
  · iapply (inv_at m K ck); iexact HI
  · iapply (reached_at (F := F) ck); iexact HR

-- Cell `j` of the device has one duty, of the copy's size; the piece written and the source piece make its payload.
private theorem wp_copyL (j : Fin 25) (hj : pr c j = c) {s : Shape}
    (src : Memref sig .tc .hbm s .f32) (dst : Memref sig .tc .vmem s .f32) (fs : Buf (Elt F) (src.view.loc (c : Thread nD τ)))
    (sem : SemLoc sig) (hs : sem = csem j) (hN : dst.view.amount (csem j) = amt j)
    (hpay : ∀ fd, iprop((dst.view.loc (c : Thread nD τ) ↦[dst.view.set]{fullShare}
          (dst.view.write (Elt F) fd (src.view.read (Elt F) fs) Finset.univ)) ∗ pts src c fs)
      ⊢ ((sched m).payload (kcell (c, j)) 0 () : sProp 𝕄))
    {hsrc : src.view.WordExact} {hdst : dst.view.WordExact} {hsem : DmaTarget.Typed .hbm sem (.here dst : DmaTarget nD τ sig .tc .vmem s .f32)}
    {α : Type} {Q : α → sProp 𝕄} {kk : PUnit → Prog (TpuEff nD τ sig (Elt F) Λ₀ .tc) α} :
    iprop(pers m K ∗ pts src c fs ∗ ptsAny dst c ∗ tok c j)
      ⊢ iprop((crd c j -∗ WP (kk ⟨⟩) Q) -∗ WP (.op (.enqueueDma src (.here dst) sem hsrc hdst hsem) kk) Q) := by
  subst hs
  unfold ptsAny tok
  rw [hj]
  iintro ⟨#HP, Hs, ⟨%fd, Hd⟩, Ht⟩
  ihave ⟨#HI, #HR⟩ := (pers_cell m K (c, j)) $$ HP
  iapply (Rounds.wp_copy_pointsTo 𝒱₀ ER (sched m) (c : Thread nD τ) none (src := src) (dst := dst) (sem := csem j)
      (q := fullShare) (fs := fs) (fd := fd) (κ := K (c, j)) (r := 0) (d := ()) (mem_duties m c j) () (amt j) hN
      (amount_cell m c j ()) (hpay fd))
  iframe # ∗

abbrev rowsA (k : Fin 4) : Rect S1024x512 := Rect.unit (s := S1024x512) (k0_off4 c (w32 k)) S32x512.size (k0_off4_inb c k)

-- On the rows of chunk `k` the launched block, truncated to bf16, is the result's final contents.
theorem wp_chunkA (k : Fin 4) (pf : Vec F S32x512 .f32 → FVec F S32x512 .bf16)
    (hpf : pf = fun v => truncf .bf16 v bitsLt_bf16_f32) (f : Buf (Elt F) ((slA c k).view.loc (c : Thread nD τ)))
    {h1 : _} {h2 : _} {h3 : _} {h4 : _}
    {α : Type} {Q : α → sProp 𝕄} {kk : PUnit → Prog (TpuEff nD τ sig (Elt F) Λ₀ .tc) α} :
    iprop(pts (xvA c) c (xin m c) ∗ pts (slA c k) c f)
      ⊢ iprop(((pts (xvA c) c (xin m c) ∗ pts (slA c k) c (outF m c)) -∗ WP (kk ⟨⟩) Q)
          -∗ WP (.op (.load xM (Rect.unit (s := S512x512) (k0_off3 c (w32 k)) S32x512.size (k0_off3_inb c k)).toLoadRect h1) fun v =>
            .op (.load oM (rowsA c k).toLoadRect h2) fun _ => .op (.store oM (rowsA c k) (pf v) Finset.univ h3 h4) kk) Q) := by
  subst hpf
  iintro ⟨Hx, Ho⟩ Hk
  iapply (wp_load 𝒱₀ (c : Thread nD τ) none Set.univ (m := xM) (loadA_sub c k)) $$ Hx; iintro Hx
  iapply (wp_load 𝒱₀ (c : Thread nD τ) none Set.univ (m := oM) (accA_load_sub c k)) $$ Ho; iintro Ho
  iapply (wp_store 𝒱₀ (c : Thread nD τ) none Set.univ (m := oM) (r := rowsA c k) (Mk := Finset.univ) (accA_store_sub c k)) $$ Ho; iintro Ho
  iapply Hk; iframe Hx
  iapply (storeA_pts m c k f); iexact Ho

theorem part1_proof  (Q : (Σ' (d0 : Dev nD) (v2 : BitVec 32) (v5 : BitVec 32) (v8 : BitVec 32) (v10 : BitVec 32) (v13 : BitVec 32) (v14 : BitVec 32) (v16 : BitVec 32) (v18 : BitVec 32) (v19 : BitVec 32) (v21_r0 : Sems sig S_) (v31_r0 : BitVec 32), BitVec 32) → sProp 𝕄) :
    iprop(pers m K
        ∗ owesE c 0
        ∗ tok c 0
        ∗ ptsAny (slA (px c) 0) c
        ∗ ptsAny (slA (px c) 1) c
        ∗ ptsAny (slA (px c) 2) c
        ∗ ptsAny (slA (px c) 3) c
        ∗ ptsAny (slD (px c) 0) c
        ∗ ptsAny (slD (px c) 1) c
        ∗ (∀ v2 : BitVec 32, ∀ v5 : BitVec 32, ∀ v8 : BitVec 32, ∀ v10 : BitVec 32, ∀ v13 : BitVec 32, ∀ v14 : BitVec 32, ∀ v16 : BitVec 32, ∀ v18 : BitVec 32, ∀ v19 : BitVec 32, ∀ v31 : BitVec 32, ∀ v32 : BitVec 32, iprop(owesE c 1) -∗ Q ⟨c, v2, v5, v8, v10, v13, v14, v16, v18, v19, (SemArray.scalar (sig.barrier 0 rfl) : Sems sig S_), v31, v32⟩))
      ⊢ WP (pt1) Q := by
  unfold pt1 atLaunch
  rw [k0_part1_eq_skeleton]; unfold k0_part1_skel
  simp only [semSignalWord, Prog.lift, Prog.bind_op, Prog.bind_ret, Prog.pure_eq_ret, wp_deviceId, dev1_eq]
  unfold owesE
  iintro ⟨#HP, ⟨%W, HO⟩, Ht, HA0, HA1, HA2, HA3, HD0, HD1, Hk⟩
  ihave ⟨#HI0, #HR0⟩ := (pers_cell m K (px c, 0)) $$ HP
  iapply (Rounds.wp_signal 𝒱₀ ER (sched m) (c : Thread nD τ) none (dst := (px c : Thread nD τ)) (sem := barS) (κ := K (px c, 0))
      (r := 0) (d := ()) (mem_duties m (px c) 0)
      ((amount_cell m (px c) 0 ()).trans (by decide)) () (Oat c 1) rfl)
    $$ [HO Ht HA0 HA1 HA2 HA3 HD0 HD1]
  · rw [show (sched m).payload ((px c : Thread nD τ), SemLoc.reg barS) 0 () = barPay (px c) from payload_cell m (px c) 0 ()]
    unfold barPay; rw [px_px]
    iframe ∗
    isplitr; · iexact HI0
    isplitl [HO]; · iexact HO
    isplitl [Ht]; · iexact Ht
    iexact HR0
  iintro HO
  rw [wp_ret]; imodintro
  iapply Hk
  iexists W
  iexact HO

theorem part2_proof (v5 v8 v10 v14 v18 v31 v32 : BitVec 32) (Q : PUnit → sProp 𝕄) :
    iprop(pers m K
        ∗ owesE c 1
        ∗ tok c 1
        ∗ ptsAny (slF (pz c) 0) c
        ∗ ptsAny (slF (pz c) 1) c
        ∗ ptsAny (slF (pz c) 2) c
        ∗ ptsAny (slF (pz c) 3) c
        ∗ tok c 2
        ∗ tok c 3
        ∗ tok c 4
        ∗ ptsAny (xvA c) c
        ∗ ptsAny xvB c
        ∗ ptsAny (xvC c) c
        ∗ pts (hbA c) c (xin m c)
        ∗ pts hbB c (xin m c)
        ∗ pts (hbC c) c (xin m c)
        ∗ pos0 c 0
        ∗ crd c 0
        ∗ pos0 c 2
        ∗ ptsAny (slA c 0) c
        ∗ (iprop(owesE c 2
        ∗ crd c 3
        ∗ crd c 4
        ∗ pos1 c 0
        ∗ barPay c
        ∗ pos1 c 2
        ∗ pts (xvA c) c (xin m c)
        ∗ pts (hbA c) c (xin m c)
        ∗ pts (slA c 0) c (outF m c)) -∗ Q ⟨⟩))
      ⊢ WP (pt2 c v5 v8 v10 v14 v18 (SemArray.scalar (sig.barrier 0 rfl) : Sems sig S_) v31 v32) Q := by
  unfold pt2 atLaunch
  rw [k0_part2_eq_skeleton]; unfold k0_part2_skel
  simp only [semSignalWord, semWaitWord, Prog.lift, Prog.bind_op, Prog.bind_ret, Prog.pure_eq_ret, wp_deviceId, dev2_eq]
  unfold owesE
  iintro ⟨#HP, ⟨%W, HO⟩, Ht1, HF0, HF1, HF2, HF3, Ht2, Ht3, Ht4, HxA, HxB, HxC, HhA, HhB, HhC, Hp0, Hc0, Hp2, Ho, Hk⟩
  ihave ⟨#HI1, #HR1⟩ := (pers_cell m K (pz c, 1)) $$ HP
  iapply (Rounds.wp_signal 𝒱₀ ER (sched m) (c : Thread nD τ) none (dst := (pz c : Thread nD τ)) (sem := pzS) (κ := K (pz c, 1))
      (r := 0) (d := ()) (mem_duties m (pz c) 1)
      ((amount_cell m (pz c) 1 ()).trans (by decide)) () (Oat c 2) rfl)
    $$ [HO Ht1 HF0 HF1 HF2 HF3]
  · rw [show (sched m).payload ((pz c : Thread nD τ), SemLoc.reg pzS) 0 () = pzPay (pz c) from payload_cell m (pz c) 1 ()]
    unfold pzPay; rw [pz_pz]
    iframe ∗
    isplitr; · iexact HI1
    isplitl [HO]; · iexact HO
    isplitl [Ht1]; · iexact Ht1
    iexact HR1
  iintro HO
  iapply (wp_copyL m K c 2 rfl (hbA c) (xvA c) (xin m c) _ rfl rfl (copyA_pay m c)) $$ [$]
  iintro HcA
  iapply (wp_copyL m K c 3 rfl hbB xvB (xin m c) _ rfl rfl (copyB_pay m c)) $$ [$]
  iintro HcB
  iapply (wp_copyL m K c 4 rfl (hbC c) (xvC c) (xin m c) _ rfl rfl (copyC_pay m c)) $$ [$]
  iintro HcC
  iapply (wait_reg m K c 0 2 (mayWait_bar c) (hq := by rfl) (hn := by decide) W) $$ [$]
  iintro ⟨HO, Hp0, Hbar⟩
  ihave Hbar := (Entails.of_eq (show pay m c 0 = barPay c from rfl)) $$ Hbar
  iapply (wait_dma m K c 2 2 (mayWait_la c) (hq := by rfl) (hamt := show (xvA c).view.dmaCredit = amt 2 from rfl) (insert (csem 0, ()) W)) $$ [$]
  iintro ⟨HO, Hp2, HpayA⟩
  ihave HpayA := (Entails.of_eq (show pay m c 2 = iprop(_ ∗ _) from rfl)) $$ HpayA
  icases HpayA with ⟨HxA, HhA⟩
  unfold ptsAny
  icases Ho with ⟨%fo, Ho⟩
  iapply (wp_chunkA m c 0 k0_pay1 rfl fo) $$ [$]
  iintro ⟨HxA, Ho⟩
  rw [wp_ret]; imodintro
  iapply Hk
  iframe
  iexists _; iexact HO

end Cert.KernelIdeal.AG

end
-- ==== Proof.Sends.lean ====
import proofs.«900690_g7700000000000691_dist_ag_v7x_xyz2x4x4_x_m512_n512_bf16_1_alg».proof.Proof.Waits
import proofs.«900690_g7700000000000691_dist_ag_v7x_xyz2x4x4_x_m512_n512_bf16_1_alg».proof.Proof.Credit

noncomputable section

namespace Cert.KernelIdeal.AG

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

theorem records_inv (K : Dev nD × Fin 25 → ℕ) (ck : Dev nD × Fin 25) : records m K ⊢ cellInv ER (sched m) (K ck) (kcell ck) := by
  unfold records; iintro ⟨H, -⟩; iapply (inv_at m K ck) $$ H
theorem records_reached (K : Dev nD × Fin 25 → ℕ) (ck : Dev nD × Fin 25) : records m K ⊢ reached ER (kcell ck) 0 := by
  unfold records; iintro ⟨-, H⟩; iapply (reached_at ck) $$ H

-- The copy pays the one duty of its departure cell and of its landing cell, so what is owed drops by the landing's amount.
theorem send_remote (K : Dev nD × Fin 25 → ℕ) (c n n' : Dev nD) (js jr : Fin 25) (hc : pr c js = c) (hn : n = n') (hp : n' = pr c jr)
    (qs qr : DmaSem sig) (hqs : csem js = .dma qs) (hqr : csem jr = .dma qr)
    {sp sp' : Space} {s : Shape} {e : EltTy} (src : Memref sig .tc sp s e) (dst : Memref sig .tc sp' s e)
    {hsc : dst.view.ref.isScScratch = false}
    {hsrc : src.view.WordExact} {hdst : dst.view.WordExact}
    {hsem : DmaTarget.Typed (nD := nD) (τ := τ) (p := Proc.tc) sp (.dma qr) (.remote (Dev.tc n : Thread nD τ) dst (.dma qs) hsc)}
    (fs : Buf (Elt F) (src.view.loc (c : Thread nD τ))) (fd : Buf (Elt F) (dst.view.loc (n' : Thread nD τ)))
    (i : ℕ) (W : Waits sig Unit)
    (hN : dst.view.amount (.dma qr) = amt jr) (hamt : amt js = amt jr)
    (hO : Oat c i = Oat c (i + 1) + tallyAt (kcell (pr c jr, jr)) () (amt jr))
    (hpay₁ : (src.view.loc (c : Thread nD τ) ↦[src.view.set]{fullShare} fs) ⊢ (sched m).payload (kcell (c, js)) 0 ())
    (hpay₂ : (dst.view.loc (n' : Thread nD τ) ↦[dst.view.set]{fullShare} (dst.view.write (Elt F) fd (src.view.read (Elt F) fs) Finset.univ))
      ⊢ (sched m).payload (kcell (n', jr)) 0 ())
    {α : Type} {Q : α → sProp 𝕄} {k : PUnit → Prog (TpuEff nD τ sig (Elt F) Λ₀ .tc) α} :
    iprop(pers m K ∗ (src.view.loc (c : Thread nD τ) ↦[src.view.set]{fullShare} fs) ∗ (dst.view.loc (n' : Thread nD τ) ↦[dst.view.set]{fullShare} fd)
        ∗ owes (c : Thread nD τ) (Oat c i) W ∗ tok c js ∗ tok c jr)
      ⊢ iprop(((crd c js ∗ owes (c : Thread nD τ) (Oat c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn; subst hp
  have hcs : kcell (c, js) = ((c : Thread nD τ), SemLoc.dma qs) := congrArg (Prod.mk _) hqs
  have hcr : kcell (pr c jr, jr) = ((pr c jr : Thread nD τ), SemLoc.dma qr) := congrArg (Prod.mk _) hqr
  have hO' : Oat c i = Oat c (i + 1) + tallyAt ((pr c jr : Thread nD τ), SemLoc.dma qr) () (amt jr) := by rw [hO, hcr]
  iintro ⟨⟨#Hrec, -⟩, Hs, Hd, HO, Ht₁, Ht₂⟩
  unfold tok crd
  rw [hc, hamt, hcs, hcr]
  iapply (Rounds.wp_send_pointsTo 𝒱₀ ER (sched m) (c : Thread nD τ) none (c' := (pr c jr : Thread nD τ)) (src := src) (dst := dst)
    (sS := .dma qs) (sem := .dma qr) (q := fullShare) (fs := fs) (fd := fd) (r₁ := 0) (r₂ := 0) (d₁ := ()) (d₂ := ())
    (κ₁ := K (c, js)) (κ₂ := K (pr c jr, jr))
    (by rw [← hcs, duties_cell]; exact Finset.mem_singleton_self _) (by rw [← hcr, duties_cell]; exact Finset.mem_singleton_self _)
    () () (amt jr) hN (by rw [← hcs, amount_cell, hamt]) (by rw [← hcr, amount_cell]) (Oat c (i + 1)) hO' (W := W)
    (by rw [← hcs]; exact hpay₁) (by rw [← hcr]; exact hpay₂))
  rw [← hcs, ← hcr]
  isplitr; · iapply (records_inv m K (c, js)); iexact Hrec
  isplitr; · iapply (records_inv m K (pr c jr, jr)); iexact Hrec
  iframe Hs Hd HO Ht₁ Ht₂
  isplitr; · iapply (records_reached m K (c, js)); iexact Hrec
  iapply (records_reached m K (pr c jr, jr)); iexact Hrec

end Cert.KernelIdeal.AG

end
-- ==== Proof.Part34.lean ====
import proofs.«900690_g7700000000000691_dist_ag_v7x_xyz2x4x4_x_m512_n512_bf16_1_alg».proof.Proof.Part12
import proofs.«900690_g7700000000000691_dist_ag_v7x_xyz2x4x4_x_m512_n512_bf16_1_alg».proof.Proof.Sends

noncomputable section

namespace Cert.KernelIdeal.AG

open Cert.KernelIdeal Cert.KernelIdeal.Gen
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

variable (K : Dev nD × Fin 25 → ℕ) (c : Dev nD)

local notation "WP" => wp frame (wpE (defs₀ (F := F)) 𝒱₀ c none) Set.univ

theorem part3_proof (v5 v8 v10 v14 v18 : BitVec 32) (Q : PUnit → sProp 𝕄) :
    iprop(pers m K
        ∗ owesE c 2
        ∗ pts (xvA c) c (xin m c)
        ∗ pts (slA c 0) c (outF m c)
        ∗ ptsAny (slA c 0) (px c)
        ∗ tok c 5
        ∗ tok c 9
        ∗ ptsAny (slA c 1) c
        ∗ ptsAny (slA c 1) (px c)
        ∗ tok c 6
        ∗ tok c 10
        ∗ ptsAny (slA c 2) c
        ∗ (iprop(owesE c 4
        ∗ pts (xvA c) c (xin m c)
        ∗ crd c 5
        ∗ crd c 6
        ∗ pts (slA c 2) c (outF m c)) -∗ Q ⟨⟩))
      ⊢ WP (pt3 c v5 v8 v10 v14 v18) Q := by
  unfold pt3 atLaunch
  rw [k0_part3_eq_skeleton]
  unfold k0_part3_skel
  simp only [Prog.lift, Prog.bind_op, Prog.bind_ret, Prog.pure_eq_ret]
  unfold owesE ptsAny
  iintro ⟨#Hp, ⟨%W, HO⟩, Hxv, HA0, ⟨%f0, HA0p⟩, Ht5, Ht9, ⟨%f1, HA1⟩, ⟨%f1p, HA1p⟩, Ht6, Ht10, ⟨%f2, HA2⟩, Hk⟩
  iapply (send_remote m K c _ (px c) 5 9 rfl (dev3_eq c) rfl _ _ rfl rfl (slA c 0) (slA c 0) _ _ 2 W rfl rfl rfl (srcA_pay m c 0) (sendA_pay m c 0 f0)) $$ [$]
  iintro ⟨Hc5, HO⟩
  iapply (wp_chunkA m c 1 k0_pay2 rfl f1) $$ [$]
  iintro ⟨Hxv, HA1⟩
  iapply (send_remote m K c _ (px c) 6 10 rfl (dev4_eq c) rfl _ _ rfl rfl (slA c 1) (slA c 1) _ _ 3 W rfl rfl rfl (srcA_pay m c 1) (sendA_pay m c 1 f1p)) $$ [$]
  iintro ⟨Hc6, HO⟩
  iapply (wp_chunkA m c 2 k0_pay3 rfl f2) $$ [$]
  iintro ⟨Hxv, HA2⟩
  rw [wp_ret]; imodintro
  iapply Hk
  iframe
  iexists _; iexact HO

theorem part4_proof (v5 v8 v10 v14 v18 : BitVec 32) (Q : FVec F S128x512 .bf16 → sProp 𝕄) :
    iprop(pers m K
        ∗ owesE c 4
        ∗ pts (xvA c) c (xin m c)
        ∗ pts (slA c 2) c (outF m c)
        ∗ ptsAny (slA c 2) (px c)
        ∗ tok c 7
        ∗ tok c 11
        ∗ ptsAny (slA c 3) c
        ∗ ptsAny (slA c 3) (px c)
        ∗ tok c 8
        ∗ tok c 12
        ∗ pos0 c 3
        ∗ crd c 3
        ∗ (iprop(owesE c 6
        ∗ pts (xvA c) c (xin m c)
        ∗ crd c 7
        ∗ crd c 8
        ∗ pos1 c 3
        ∗ pts xvB c (xin m c)
        ∗ pts hbB c (xin m c)) -∗ Q (d0val m c)))
      ⊢ WP (pt4 c v5 v8 v10 v14 v18) Q := by
  unfold pt4 atLaunch
  rw [k0_part4_eq_skeleton]
  unfold k0_part4_skel
  simp only [Prog.lift, Prog.bind_op, Prog.bind_ret, Prog.pure_eq_ret]
  unfold owesE ptsAny d0val
  iintro ⟨#Hp, ⟨%W, HO⟩, Hxv, HA2, ⟨%f2p, HA2p⟩, Ht7, Ht11, ⟨%f3, HA3⟩, ⟨%f3p, HA3p⟩, Ht8, Ht12, Hat3, Hc3, Hk⟩
  iapply (send_remote m K c _ (px c) 7 11 rfl (dev5_eq c) rfl _ _ rfl rfl (slA c 2) (slA c 2) _ _ 4 W rfl rfl rfl (srcA_pay m c 2) (sendA_pay m c 2 f2p)) $$ [$]
  iintro ⟨Hc7, HO⟩
  iapply (wp_chunkA m c 3 k0_pay4 rfl f3) $$ [$]
  iintro ⟨Hxv, HA3⟩
  iapply (send_remote m K c _ (px c) 8 12 rfl (dev6_eq c) rfl _ _ rfl rfl (slA c 3) (slA c 3) _ _ 5 W rfl rfl rfl (srcA_pay m c 3) (sendA_pay m c 3 f3p)) $$ [$]
  iintro ⟨Hc8, HO⟩
  iapply (wait_dma m K c 3 6 (mayWait_lb c) (hq := rfl) (hamt := rfl) W) $$ [$]
  iintro ⟨HO, Hat3, Hpay⟩
  ihave Hpay := (Entails.of_eq (show pay m c 3 = iprop(_ ∗ _) from rfl)) $$ Hpay
  icases Hpay with ⟨HxB, HhB⟩
  iapply (wp_load 𝒱₀ (c : Thread nD τ) none Set.univ (m := xM) loadD0_sub) $$ HxB
  iintro HxB
  rw [wp_ret]; imodintro
  iapply Hk
  iframe
  iexists _; iexact HO

end Cert.KernelIdeal.AG

end
-- ==== Proof.Part5.lean ====
import proofs.«900690_g7700000000000691_dist_ag_v7x_xyz2x4x4_x_m512_n512_bf16_1_alg».proof.Proof.Sends
import proofs.«900690_g7700000000000691_dist_ag_v7x_xyz2x4x4_x_m512_n512_bf16_1_alg».proof.Proof.Vals

namespace Cert.KernelIdeal.AG

open Cert.KernelIdeal Cert.KernelIdeal.Gen Idealize.ShloMosaic Idealize.ShloMosaic.TcCoe Idealize.SL Idealize.SL.BI
  Idealize.SL.BI.BIBase Idealize.SL.ProofMode Idealize.SL.Sem

variable {F : FTy → Type} [FloatOps F] (m : (ℓ : Loc nD τ sig) → Buf (Elt F) ℓ) (K : Dev nD × Fin 25 → ℕ) (c : Dev nD)

local notation "𝕄" => MT nD τ sig Unit (Elt F) ℕ UU ℕ
local notation "WP" => wp frame (wpE (defs₀ (F := F)) 𝒱₀ c none) Set.univ

-- Each 128-row chunk of the lower half gets its final rows and is copied to the x-partner, its departure and landing paid.
theorem part5_proof (v5 v8 v10 v14 : BitVec 32) (Q : PUnit → sProp 𝕄) :
    iprop(pers m K
        ∗ owesE c 6
        ∗ pts xvB c (xin m c)
        ∗ ptsAny (slD c 0) c
        ∗ ptsAny (slD c 0) (px c)
        ∗ tok c 13
        ∗ tok c 15
        ∗ ptsAny (slD c 1) c
        ∗ ptsAny (slD c 1) (px c)
        ∗ tok c 14
        ∗ tok c 16
        ∗ (iprop(owesE c 8
        ∗ pts xvB c (xin m c)
        ∗ crd c 13
        ∗ crd c 14) -∗ Q ⟨⟩))
      ⊢ WP (pt5 c v5 v8 v10 v14 (d0val m c)) Q := by
  unfold pt5 atLaunch
  rw [k0_part5_eq_skeleton]
  unfold k0_part5_skel
  simp only [Prog.lift, Prog.bind_op, Prog.bind_ret, Prog.pure_eq_ret, d0val, k0_pay5, k0_pay6]
  unfold owesE ptsAny
  iintro ⟨#Hp, ⟨%W, HO⟩, HxB, ⟨%f0, HD0⟩, ⟨%g0, HD0p⟩, Ht13, Ht15, ⟨%f1, HD1⟩, ⟨%g1, HD1p⟩, Ht14, Ht16, Hk⟩
  iapply (wp_load 𝒱₀ (c : Thread nD τ) none Set.univ (m := oM) (accD_load_sub c 0)) $$ HD0; iintro HD0
  iapply (wp_store 𝒱₀ (c : Thread nD τ) none Set.univ (r := (Rect.unit (s := S1024x512) (k0_off6 c (w128 0)) S128x512.size (k0_off6_inb c 0))) (accD_store_sub c 0)) $$ HD0; iintro HD0
  ihave HD0 := (storeD0_pts m c f0) $$ HD0
  iapply (send_remote m K c _ (px c) 13 15 rfl (dev7_eq c) rfl _ _ rfl rfl (slD c 0) (slD c 0) _ _ 6 _ rfl rfl rfl
      (srcD_pay m c 0) (sendD_pay m c 0 g0)) $$ [HO HD0 HD0p Ht13 Ht15]
  · iframe # ∗
  iintro ⟨Hc13, HO⟩
  iapply (wp_load 𝒱₀ (c : Thread nD τ) none Set.univ (m := xM) loadD1_sub) $$ HxB; iintro HxB
  iapply (wp_load 𝒱₀ (c : Thread nD τ) none Set.univ (m := oM) (accD_load_sub c 1)) $$ HD1; iintro HD1
  iapply (wp_store 𝒱₀ (c : Thread nD τ) none Set.univ (r := (Rect.unit (s := S1024x512) (k0_off6 c (w128 1)) S128x512.size (k0_off6_inb c 1))) (accD_store_sub c 1)) $$ HD1; iintro HD1
  ihave HD1 := (storeD1_pts m c f1) $$ HD1
  iapply (send_remote m K c _ (px c) 14 16 rfl (dev8_eq c) rfl _ _ rfl rfl (slD c 1) (slD c 1) _ _ 7 _ rfl rfl rfl
      (srcD_pay m c 1) (sendD_pay m c 1 g1)) $$ [HO HD1 HD1p Ht14 Ht16]
  · iframe # ∗
  iintro ⟨Hc14, HO⟩
  rw [wp_ret]; imodintro
  iapply Hk
  iframe
  iexists W; iexact HO

end Cert.KernelIdeal.AG
-- ==== Proof.Part6.lean ====
import proofs.«900690_g7700000000000691_dist_ag_v7x_xyz2x4x4_x_m512_n512_bf16_1_alg».proof.Proof.Waits
import proofs.«900690_g7700000000000691_dist_ag_v7x_xyz2x4x4_x_m512_n512_bf16_1_alg».proof.Proof.Sends
import proofs.«900690_g7700000000000691_dist_ag_v7x_xyz2x4x4_x_m512_n512_bf16_1_alg».proof.Proof.Vals

namespace Cert.KernelIdeal.AG

open Cert.KernelIdeal Cert.KernelIdeal.Gen Idealize.ShloMosaic Idealize.ShloMosaic.TcCoe Idealize.SL Idealize.SL.BI
  Idealize.SL.BI.BIBase Idealize.SL.ProofMode Idealize.SL.Sem

variable {F : FTy → Type} [FloatOps F] (m : (ℓ : Loc nD τ sig) → Buf (Elt F) ℓ) (K : Dev nD × Fin 25 → ℕ) (c : Dev nD)

local notation "𝕄" => MT nD τ sig Unit (Elt F) ℕ UU ℕ
local notation "WP" => wp frame (wpE (defs₀ (F := F)) 𝒱₀ c none) Set.univ

-- Three waits hand over their payloads; the kept quarter gets its final rows; the x-partner's first chunk goes on to the z-partner.
theorem part6_proof (v2 v5 v8 v10 v13 v14 v16 v18 v19 : BitVec 32) (Q : BitVec 32 → sProp 𝕄) :
    iprop(pers m K
        ∗ owesE c 8
        ∗ pos0 c 4
        ∗ crd c 4
        ∗ ptsAny (slK c) c
        ∗ pos0 c 1
        ∗ crd c 1
        ∗ pos0 c 9
        ∗ crd c 9
        ∗ tok c 17
        ∗ tok c 21
        ∗ (∀ w : BitVec 32, iprop(owesE c 9
        ∗ pos1 c 4
        ∗ pts (xvC c) c (xin m c)
        ∗ pts (hbC c) c (xin m c)
        ∗ pts (slK c) c (outF m c)
        ∗ pos1 c 1
        ∗ ptsAny (slF c 1) (pz c)
        ∗ ptsAny (slF c 2) (pz c)
        ∗ ptsAny (slF c 3) (pz c)
        ∗ pos1 c 9
        ∗ crd c 17) -∗ Q w))
      ⊢ WP (pt6 c v2 v5 v8 v10 v13 v14 v16 v18 v19) Q := by
  unfold pt6 atLaunch
  rw [k0_part6_eq_skeleton]
  unfold k0_part6_skel
  simp only [semWaitWord, Prog.lift, Prog.bind_op, Prog.bind_ret, Prog.pure_eq_ret, k0_pay7]
  unfold owesE ptsAny
  iintro ⟨#Hp, ⟨%W, HO⟩, Hat4, Hc4, ⟨%fk, HK⟩, Hat1, Hc1, Hat9, Hc9, Ht17, Ht21, Hk⟩
  iapply (wait_dma m K c 4 8 (mayWait_lc c) rfl (dst := xvC c) (hamt := rfl) _) $$ [$]
  rw [show pay m c 4 = iprop(pts (xvC c) c (xin m c) ∗ pts (hbC c) c (xin m c)) from rfl]
  iintro ⟨HO, Hat4, Hx, Hh⟩
  iapply (wp_load 𝒱₀ (c : Thread nD τ) none Set.univ (m := xM) (loadK_sub c)) $$ Hx; iintro Hx
  iapply (wp_load 𝒱₀ (c : Thread nD τ) none Set.univ (m := oM) (accK_load_sub c)) $$ HK; iintro HK
  iapply (wp_store 𝒱₀ (c : Thread nD τ) none Set.univ (r := Rect.unit (s := S1024x512) (k0_off9 c) S128x512.size (k0_off9_inb c)) (accK_store_sub c)) $$ HK; iintro HK
  ihave HK := (storeK_pts m c fk) $$ HK
  iapply (wait_reg m K c 1 8 (mayWait_pz c) rfl rfl _) $$ [$]
  rw [show pay m c 1 = pzPay c from rfl]
  unfold pzPay ptsAny
  iintro ⟨HO, Hat1, ⟨%fd, Hf0⟩, Hf1, Hf2, Hf3⟩
  iapply (wait_dma m K c 9 8 (mayWait_afR c 0) rfl (dst := slA c 0) (hamt := rfl) _) $$ [$]
  rw [show pay m c 9 = pts (slA (px c) 0) c (outF m c) from rfl]
  iintro ⟨HO, Hat9, Hs⟩
  ihave Hs := (pts_slA_slF c 0 (outF m c)) $$ Hs
  iapply (send_remote m K c _ (pz c) 17 21 rfl (dev9_eq c) rfl _ _ rfl rfl (slF c 0) (slF c 0) _ _ 8 _ rfl rfl rfl (srcF_pay m c 0) (sendF_pay m c 0 fd)) $$ [$]
  iintro ⟨Hc17, HO⟩
  rw [wp_ret]; imodintro
  iapply Hk
  iframe
  iexists _; iexact HO

end Cert.KernelIdeal.AG
-- ==== Proof.Part789.lean ====
import proofs.«900690_g7700000000000691_dist_ag_v7x_xyz2x4x4_x_m512_n512_bf16_1_alg».proof.Proof.Credit
import proofs.«900690_g7700000000000691_dist_ag_v7x_xyz2x4x4_x_m512_n512_bf16_1_alg».proof.Proof.Vals
import proofs.«900690_g7700000000000691_dist_ag_v7x_xyz2x4x4_x_m512_n512_bf16_1_alg».proof.Proof.Waits
import proofs.«900690_g7700000000000691_dist_ag_v7x_xyz2x4x4_x_m512_n512_bf16_1_alg».proof.Proof.Sends

noncomputable section

namespace Cert.KernelIdeal.AG

open Cert.KernelIdeal.Gen
open Idealize.ShloMosaic Idealize.ShloMosaic.TcCoe Idealize.ShloMosaic.Rounds
open Idealize.SL Idealize.SL.BI Idealize.SL.BI.BIBase Idealize.SL.ProofMode Idealize.SL.Sem

variable {F : FTy → Type} [FloatOps F]

variable (m : (ℓ : Loc nD τ sig) → Buf (Elt F) ℓ) (K : Dev nD × Fin 25 → ℕ) (c : Dev nD)

local notation "𝕄" => MT nD τ sig Unit (Elt F) ℕ UU ℕ

local notation "WP" => wp frame (wpE (defs₀ (F := F)) 𝒱₀ c none) Set.univ

/-- Chunk 1 arrives from the x-partner and goes on to the z-partner; then chunk 2 arrives. -/
theorem part7_proof (v2 v5 v8 v10 v13 v16 v18 v192 : BitVec 32) (Q : (Σ' (v226_r0 : BitVec 32), BitVec 32) → sProp 𝕄) :
    iprop(pers m K
        ∗ owesE c 9
        ∗ pos0 c 10
        ∗ crd c 10
        ∗ ptsAny (slF c 1) (pz c)
        ∗ tok c 18
        ∗ tok c 22
        ∗ pos0 c 11
        ∗ crd c 11
        ∗ (∀ w : BitVec 32, ∀ w' : BitVec 32, iprop(owesE c 10
        ∗ pos1 c 10
        ∗ crd c 18
        ∗ pos1 c 11
        ∗ pts (slA (px c) 2) c (outF m c)) -∗ Q ⟨w, w'⟩))
      ⊢ WP (pt7 c v2 v5 v8 v10 v13 v16 v18 v192) Q := by
  unfold pt7 atLaunch
  rw [k0_part7_eq_skeleton]; unfold k0_part7_skel
  simp only [semSignalWord, semWaitWord, Prog.lift, Prog.bind_op, Prog.bind_ret, Prog.pure_eq_ret, wp_deviceId]
  unfold owesE ptsAny
  iintro ⟨#Hp, ⟨%W, HO⟩, A0, C0, ⟨%fd, Hd⟩, T, T', A1, C1, Hk⟩
  iapply (wait_dma m K c 10 9 (mayWait_afR c 1) (by rfl) (by rfl) W) $$ [$]
  iintro ⟨HO, A0, Hs⟩
  ihave Hs := (show pay m c 10 ⊢ _ from pts_slA_slF c 1 _) $$ Hs
  iapply (send_remote m K c _ (pz c) 18 22 rfl (dev10_eq c) rfl _ _ rfl rfl (slF c 1) (slF c 1) _ fd 9 _ rfl rfl rfl (srcF_pay m c 1) (sendF_pay m c 1 fd)) $$ [$]
  iintro ⟨C, HO⟩
  iapply (wait_dma m K c 11 10 (mayWait_afR c 2) (by rfl) (by rfl) _) $$ [$]
  iintro ⟨HO, A1, Hr⟩
  ihave Hr := (show pay m c 11 ⊢ pts (slA (px c) 2) c _ from .rfl) $$ Hr
  rw [wp_ret]; imodintro
  iapply Hk; iframe
  iexists _; iexact HO

/-- Chunk 2 goes on to the z-partner; then chunk 3 arrives. -/
theorem part8_proof (v2 v5 v8 v10 v13 v16 v18 v226 c64 : BitVec 32) (Q : PUnit → sProp 𝕄) :
    iprop(pers m K
        ∗ owesE c 10
        ∗ pts (slA (px c) 2) c (outF m c)
        ∗ ptsAny (slF c 2) (pz c)
        ∗ tok c 19
        ∗ tok c 23
        ∗ pos0 c 12
        ∗ crd c 12
        ∗ (iprop(owesE c 11
        ∗ crd c 19
        ∗ pos1 c 12
        ∗ pts (slA (px c) 3) c (outF m c)) -∗ Q ⟨⟩))
      ⊢ WP (pt8 c v2 v5 v8 v10 v13 v16 v18 v226 c64) Q := by
  unfold pt8 atLaunch
  rw [k0_part8_eq_skeleton]; unfold k0_part8_skel
  simp only [semSignalWord, semWaitWord, Prog.lift, Prog.bind_op, Prog.bind_ret, Prog.pure_eq_ret, wp_deviceId]
  unfold owesE ptsAny
  iintro ⟨#Hp, ⟨%W, HO⟩, Hs, ⟨%fd, Hd⟩, T, T', A, C0, Hk⟩
  ihave Hs := (pts_slA_slF c 2 (outF m c)) $$ Hs
  iapply (send_remote m K c _ (pz c) 19 23 rfl (dev11_eq c) rfl _ _ rfl rfl (slF c 2) (slF c 2) _ fd 10 _ rfl rfl rfl (srcF_pay m c 2) (sendF_pay m c 2 fd)) $$ [$]
  iintro ⟨C, HO⟩
  iapply (wait_dma m K c 12 11 (mayWait_afR c 3) (by rfl) (by rfl) W) $$ [$]
  iintro ⟨HO, A, Hr⟩
  ihave Hr := (show pay m c 12 ⊢ pts (slA (px c) 3) c _ from .rfl) $$ Hr
  rw [wp_ret]; imodintro
  iapply Hk; iframe
  iexists _; iexact HO

/-- Chunk 3 goes on to the z-partner, the last of the device's dues; then the x-partner's lower half arrives. -/
theorem part9_proof (v2 v5 v8 v10 v13 : BitVec 32) (Q : PUnit → sProp 𝕄) :
    iprop(pers m K
        ∗ owesE c 11
        ∗ pts (slA (px c) 3) c (outF m c)
        ∗ ptsAny (slF c 3) (pz c)
        ∗ tok c 20
        ∗ tok c 24
        ∗ pos0 c 15
        ∗ crd c 15
        ∗ pos0 c 16
        ∗ crd c 16
        ∗ (iprop(owesE c 12
        ∗ crd c 20
        ∗ pos1 c 15
        ∗ pts (slD (px c) 0) c (outF m c)
        ∗ pos1 c 16
        ∗ pts (slD (px c) 1) c (outF m c)) -∗ Q ⟨⟩))
      ⊢ WP (pt9 c v2 v5 v8 v10 v13) Q := by
  unfold pt9 atLaunch
  rw [k0_part9_eq_skeleton]; unfold k0_part9_skel
  simp only [semSignalWord, semWaitWord, Prog.lift, Prog.bind_op, Prog.bind_ret, Prog.pure_eq_ret, wp_deviceId]
  unfold owesE ptsAny
  iintro ⟨#Hp, ⟨%W, HO⟩, Hs, ⟨%fd, Hd⟩, T, T', A0, C0, A1, C1, Hk⟩
  ihave Hs := (pts_slA_slF c 3 (outF m c)) $$ Hs
  iapply (send_remote m K c _ (pz c) 20 24 rfl (dev12_eq c) rfl _ _ rfl rfl (slF c 3) (slF c 3) _ fd 11 _ rfl rfl rfl (srcF_pay m c 3) (sendF_pay m c 3 fd)) $$ [$]
  iintro ⟨C, HO⟩
  iapply (wait_dma m K c 15 12 (mayWait_of_table c 15 12 (by decide)) (by rfl) (by rfl) W) $$ [$]
  iintro ⟨HO, A0, Hr⟩
  ihave Hr := (show pay m c 15 ⊢ pts (slD (px c) 0) c _ from .rfl) $$ Hr
  iapply (wait_dma m K c 16 12 (mayWait_of_table c 16 12 (by decide)) (by rfl) (by rfl) _) $$ [$]
  iintro ⟨HO, A1, Hr'⟩
  ihave Hr' := (show pay m c 16 ⊢ pts (slD (px c) 1) c _ from .rfl) $$ Hr'
  rw [wp_ret]; imodintro
  iapply Hk; iframe
  iexists _; iexact HO

end Cert.KernelIdeal.AG

end
-- ==== Proof.Part1011.lean ====
import proofs.«900690_g7700000000000691_dist_ag_v7x_xyz2x4x4_x_m512_n512_bf16_1_alg».proof.Proof.Waits

noncomputable section

namespace Cert.KernelIdeal.AG

open Cert.KernelIdeal.Gen
open Idealize.ShloMosaic Idealize.ShloMosaic.TcCoe Idealize.ShloMosaic.Rounds
open Idealize.SL Idealize.SL.BI Idealize.SL.BI.BIBase Idealize.SL.ProofMode Idealize.SL.Sem

variable {F : FTy → Type} [FloatOps F]

variable (m : (ℓ : Loc nD τ sig) → Buf (Elt F) ℓ) (K : Dev nD × Fin 25 → ℕ) (c : Dev nD)

local notation "𝕄" => MT nD τ sig Unit (Elt F) ℕ UU ℕ

local notation "WP" => wp frame (wpE (defs₀ (F := F)) 𝒱₀ c none) Set.univ

/-- A device that owes nothing may wait on any of its cells; the wait hands over the cell's payload `P`. -/
private theorem wait_done (j : Fin 25) (P : sProp 𝕄) (hP : pay m c j = P := by rfl) {q : DmaSem sig} (hq : csem j = .dma q := by rfl)
    {sp sp' : Space} {s s' : Shape} {e e' : EltTy} {κ' : Kind}
    {src : Memref sig .tc sp' s' e'} {dst : Memref sig κ' sp s e}
    {hsrc : src.view.WordExact} {hdst : dst.view.WordExact} (hamt : dst.view.dmaCredit = amt j := by rfl)
    {α : Type} {Q : α → sProp 𝕄} {k : PUnit → Prog (TpuEff nD τ sig (Elt F) Λ₀ .tc) α} :
    iprop(pers m K ∗ owesE c 12 ∗ pos0 c j ∗ crd c j)
      ⊢ iprop(((owesE c 12 ∗ pos1 c j ∗ P) -∗ WP (k ⟨⟩) Q) -∗ WP (.op (.waitDma2 q src dst hsrc hdst) k) Q) := by
  subst hP; unfold owesE
  iintro ⟨#Hp, ⟨%W, HO⟩, A, C⟩ Hk
  iapply (wait_dma m K c j 12 (by rw [show Oat c 12 = 0 from rfl, MayWait_zero]; iintro -; iempintro) hq hamt W) $$ [$]
  iintro ⟨HO, H⟩
  iapply Hk
  iframe H
  iexists _; iexact HO

/-- Five waits of a device that owes nothing. -/
theorem part10_proof (v2 v5 v13 : BitVec 32) (Q : PUnit → sProp 𝕄) :
    iprop(pers m K
        ∗ owesE c 12
        ∗ pos0 c 21
        ∗ crd c 21
        ∗ pos0 c 5
        ∗ crd c 5
        ∗ pos0 c 17
        ∗ crd c 17
        ∗ pos0 c 22
        ∗ crd c 22
        ∗ pos0 c 6
        ∗ crd c 6
        ∗ (iprop(owesE c 12
        ∗ pos1 c 21
        ∗ pts (slF (pz c) 0) c (outF m c)
        ∗ pos1 c 5
        ∗ pts (slA c 0) c (outF m c)
        ∗ pos1 c 17
        ∗ pts (slF c 0) c (outF m c)
        ∗ pos1 c 22
        ∗ pts (slF (pz c) 1) c (outF m c)
        ∗ pos1 c 6
        ∗ pts (slA c 1) c (outF m c)) -∗ Q ⟨⟩))
      ⊢ WP (pt10 c v2 v5 v13) Q := by
  unfold pt10 atLaunch
  rw [k0_part10_eq_skeleton]; unfold k0_part10_skel
  simp only [Prog.lift, Prog.bind_op, Prog.bind_ret, Prog.pure_eq_ret]
  iintro ⟨#Hp, HO, A1, C1, A2, C2, A3, C3, A4, C4, A5, C5, Hk⟩
  iapply (wait_done m K c 21 (pts (slF (pz c) 0) c _)) $$ [$]
  iintro ⟨HO, A1, P1⟩
  iapply (wait_done m K c 5 (pts (slA c 0) c _)) $$ [$]
  iintro ⟨HO, A2, P2⟩
  iapply (wait_done m K c 17 (pts (slF c 0) c _)) $$ [$]
  iintro ⟨HO, A3, P3⟩
  iapply (wait_done m K c 22 (pts (slF (pz c) 1) c _)) $$ [$]
  iintro ⟨HO, A4, P4⟩
  iapply (wait_done m K c 6 (pts (slA c 1) c _)) $$ [$]
  iintro ⟨HO, A5, P5⟩
  rw [wp_ret]; imodintro
  iapply Hk; iframe

/-- The remaining five such waits. -/
theorem part11_proof (v2 v5 v13 : BitVec 32) (Q : PUnit → sProp 𝕄) :
    iprop(pers m K
        ∗ owesE c 12
        ∗ pos0 c 18
        ∗ crd c 18
        ∗ pos0 c 23
        ∗ crd c 23
        ∗ pos0 c 7
        ∗ crd c 7
        ∗ pos0 c 19
        ∗ crd c 19
        ∗ pos0 c 24
        ∗ crd c 24
        ∗ (iprop(owesE c 12
        ∗ pos1 c 18
        ∗ pts (slF c 1) c (outF m c)
        ∗ pos1 c 23
        ∗ pts (slF (pz c) 2) c (outF m c)
        ∗ pos1 c 7
        ∗ pts (slA c 2) c (outF m c)
        ∗ pos1 c 19
        ∗ pts (slF c 2) c (outF m c)
        ∗ pos1 c 24
        ∗ pts (slF (pz c) 3) c (outF m c)) -∗ Q ⟨⟩))
      ⊢ WP (pt11 c v2 v5 v13) Q := by
  unfold pt11 atLaunch
  rw [k0_part11_eq_skeleton]; unfold k0_part11_skel
  simp only [Prog.lift, Prog.bind_op, Prog.bind_ret, Prog.pure_eq_ret]
  iintro ⟨#Hp, HO, A1, C1, A2, C2, A3, C3, A4, C4, A5, C5, Hk⟩
  iapply (wait_done m K c 18 (pts (slF c 1) c _)) $$ [$]
  iintro ⟨HO, A1, P1⟩
  iapply (wait_done m K c 23 (pts (slF (pz c) 2) c _)) $$ [$]
  iintro ⟨HO, A2, P2⟩
  iapply (wait_done m K c 7 (pts (slA c 2) c _)) $$ [$]
  iintro ⟨HO, A3, P3⟩
  iapply (wait_done m K c 19 (pts (slF c 2) c _)) $$ [$]
  iintro ⟨HO, A4, P4⟩
  iapply (wait_done m K c 24 (pts (slF (pz c) 3) c _)) $$ [$]
  iintro ⟨HO, A5, P5⟩
  rw [wp_ret]; imodintro
  iapply Hk; iframe

end Cert.KernelIdeal.AG

end
-- ==== Proof.Finish.lean ====
import proofs.«900690_g7700000000000691_dist_ag_v7x_xyz2x4x4_x_m512_n512_bf16_1_alg».proof.Proof.Waits

noncomputable section

namespace Cert.KernelIdeal.AG

open Idealize.ShloMosaic
open Idealize.SL.BI
open Idealize.SL.BI.BIBase
open Idealize.ShloMosaic.Rounds

variable {F : FTy → Type} [FloatOps F]

variable (m : (ℓ : Loc nD τ sig) → Buf (Elt F) ℓ)

local notation "𝕄" => MT nD τ sig Unit (Elt F) ℕ UU ℕ

-- Past its one round, with no duty in any later round, a cell closes and gives its counter back at zero.
theorem close_cell (K : Dev nD × Fin 25 → ℕ) (c : Dev nD) (j : Fin 25) :
    iprop(records m K ∗ pos1 c j) ⊢ |={Set.univ}=> semVal (kcell (c, j)) 0 := by
  unfold records
  iintro ⟨⟨Hinv, -⟩, Hpos⟩
  ihave Hc := (inv_at m K (c, j)) $$ Hinv
  iapply (Rounds.cell_close ER (sched m) (Set.mem_univ (K (c, j))) (fun h => h) (R := 1) (duties_later m (kcell (c, j))))
  isplitl [Hc] <;> iassumption

private theorem bigSepL_cons' (i : Fin 25) (l : List (Fin 25)) (Φ : Fin 25 → sProp 𝕄) :
    bigSepL (i :: l) Φ = iprop(Φ i ∗ bigSepL l Φ) := bigSepL_cons _ _ _

theorem close_cells (K : Dev nD × Fin 25 → ℕ) (c : Dev nD) (l : List (Fin 25)) :
    iprop(records m K ∗ bigSepL l (fun j => pos1 c j))
      ⊢ |={Set.univ}=> bigSepL l (fun j => semVal (kcell (c, j)) 0) := by
  induction l with
  | nil =>
    rw [bigSepL_nil, bigSepL_nil]
    iintro ⟨-, -⟩
    imodintro
    iempintro
  | cons i l ih =>
    rw [bigSepL_cons', bigSepL_cons']
    iintro ⟨#Hrec, Hi, Hl⟩
    iapply fupd_sep
    isplitl [Hi]
    · iapply (close_cell m K c i); iframe Hrec Hi
    · iapply ih; iframe Hrec Hl

private abbrev ownCells : List (Fin 25) := [1, 2, 3, 4, 5, 6, 7, 8, 9, 10, 11, 12, 13, 14, 15, 16, 17, 18, 19, 20, 21, 22, 23, 24]

theorem ownZero_eq (c : Dev nD) :
    ownZero (F := F) c = bigSepL ownCells (fun j : Fin 25 => semVal (kcell (c, j)) 0) := by
  unfold ownZero
  exact bigSep_eq_bigSepL_of_eq _ (by decide) (by decide) _

theorem finish_cells (K : Dev nD × Fin 25 → ℕ) (c : Dev nD) :
    iprop(pers m K ∗ pos1 c 1 ∗ pos1 c 2 ∗ pos1 c 3 ∗ pos1 c 4 ∗ pos1 c 5 ∗ pos1 c 6 ∗ pos1 c 7 ∗ pos1 c 8 ∗ pos1 c 9 ∗ pos1 c 10 ∗ pos1 c 11 ∗ pos1 c 12 ∗ pos1 c 13 ∗ pos1 c 14 ∗ pos1 c 15 ∗ pos1 c 16 ∗ pos1 c 17 ∗ pos1 c 18 ∗ pos1 c 19 ∗ pos1 c 20 ∗ pos1 c 21 ∗ pos1 c 22 ∗ pos1 c 23 ∗ pos1 c 24)
      ⊢ |={Set.univ}=> ownZero c := by
  rw [ownZero_eq]
  show iprop(pers m K ∗ bigSepL ownCells (fun j => pos1 c j)) ⊢ _
  iintro ⟨⟨Hrec, -⟩, Hpos⟩
  iapply (close_cells m K c ownCells)
  iframe Hrec Hpos

end Cert.KernelIdeal.AG

end
-- ==== Proof.Body.lean ====
import proofs.«900690_g7700000000000691_dist_ag_v7x_xyz2x4x4_x_m512_n512_bf16_1_alg».proof.Proof.Part12
import proofs.«900690_g7700000000000691_dist_ag_v7x_xyz2x4x4_x_m512_n512_bf16_1_alg».proof.Proof.Part34
import proofs.«900690_g7700000000000691_dist_ag_v7x_xyz2x4x4_x_m512_n512_bf16_1_alg».proof.Proof.Part5
import proofs.«900690_g7700000000000691_dist_ag_v7x_xyz2x4x4_x_m512_n512_bf16_1_alg».proof.Proof.Part6
import proofs.«900690_g7700000000000691_dist_ag_v7x_xyz2x4x4_x_m512_n512_bf16_1_alg».proof.Proof.Part789
import proofs.«900690_g7700000000000691_dist_ag_v7x_xyz2x4x4_x_m512_n512_bf16_1_alg».proof.Proof.Part1011
import proofs.«900690_g7700000000000691_dist_ag_v7x_xyz2x4x4_x_m512_n512_bf16_1_alg».proof.Proof.Finish

namespace Cert.KernelIdeal.AG

open Cert.KernelIdeal Cert.KernelIdeal.Gen Idealize.ShloMosaic Idealize.ShloMosaic.TcCoe Idealize.SL Idealize.SL.BI
  Idealize.SL.BI.BIBase Idealize.SL.ProofMode Idealize.SL.Sem Idealize.ShloMosaic.Rounds
open Idealize.ShloMosaic.Pipeline (Dat)

variable {F : FTy → Type} [FloatOps F] (m : (ℓ : Loc nD τ sig) → Buf (Elt F) ℓ) (ρ : Dev nD → PrngReg)

local notation "𝕄" => MT nD τ sig Unit (Elt F) ℕ UU ℕ

-- A piece at known contents is in particular a piece at some contents, so it can be cancelled against one.
@[ipm_backtrack]
instance {sp : Space} {s : Shape} {e : EltTy} (M : Memref sig .tc sp s e) (c : Dev nD) (f : Buf (Elt F) (M.view.loc (c : Thread nD τ))) :
    Frame false (no_index (pts M c f)) (ptsAny M c : sProp 𝕄) iprop(emp) where
  frame := by unfold ptsAny; iintro ⟨H, -⟩; iexists f; iexact H

theorem mw12 (c : Dev nD) (j : Fin 25) : (levAts L lv : sProp 𝕄) ⊢ MayWait (c : Thread nD τ) (csem j) () (Oat c 12) := by
  rw [Oat_12, MayWait_zero]; iintro -; iempintro

section Chain
variable (K : Dev nD × Fin 25 → ℕ) (c : Dev nD)

set_option maxHeartbeats 400000 in
-- The eleven parts run in order, each on the pieces and tokens it needs; four last waits return the sent pieces; the 17 row bands rebuild the result.
theorem sound_body (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold bodyPre ghost posns payToks creds
  simp only [bigSep_univ_eq_bigSepL (I := Fin 25) [0, 1, 2, 3, 4, 5, 6, 7, 8, 9, 10, 11, 12, 13, 14, 15, 16, 17, 18, 19, 20, 21, 22, 23, 24] (by decide) (by decide),
    bigSep_eq_bigSepL_of_eq (S := remoteJ) [0, 1, 9, 10, 11, 12, 15, 16, 21, 22, 23, 24] (by decide) (by decide), bigSepL,
    show ∀ a b : sProp 𝕄, BI.sep a b = iprop(a ∗ b) from fun _ _ => rfl]
  iintro ⟨⟨⟨⟨#Hrec, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24⟩,
      ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24⟩⟩,
      ⟨Hc0, Hc1, Hc9, Hc10, Hc11, Hc12, Hc15, Hc16, Hc21, Hc22, Hc23, Hc24⟩, #Hlev, Hhbm, Hxv⟩, Ho, ⟨%d0, %g0, %hg0, Hout⟩⟩, Hk⟩
  ihave #Hp : pers m K $$ []
  · isplitr; · iexact Hrec
    iexact Hlev
  unfold Dat.owesAt Pipeline.owesWithin
  icases Ho with ⟨%W, %hW, HO⟩
  rw [show (dats m ρ 0 c).owed t₀.castSucc = Oat c 0 from rfl]
  ihave HO : owesE c 0 $$ [HO]
  · unfold owesE; iexists W; iexact HO

  ihave Hps := (out_split c g0) $$ Hout
  unfold outPieces
  icases Hps with ⟨HA0, HA1, HA2, HA3, HD0, HD1, HKp, HrA0, HrA1, HrA2, HrA3, HrD0, HrD1, HrK0, HrK1, HrK2, HrK3⟩
  unfold xvAny
  icases Hxv with ⟨%fx, Hxv⟩
  ihave Hx3 := (xv_split c fx) $$ Hxv
  icases Hx3 with ⟨HxA, HxB, HxC⟩
  unfold hbmPts
  ihave Hh3 := (hbm_split c (xin m c)) $$ Hhbm
  icases Hh3 with ⟨HhA, HhB, HhC⟩
  unfold theBody atLaunch
  rw [cc0_body_eq_skeleton]
  unfold cc0_body_skel
  simp only [wp_bind]

  iapply (part1_proof m K c  _)
  iframe Hp HO Ht0 HrA0 HrA1 HrA2 HrA3 HrD0 HrD1
  iintro %v2 %v5 %v8 %v10 %v13 %v14 %v16 %v18 %v19 %v31 %v32 HO

  iapply (part2_proof m K c _ _ _ _ _ _ _ _)
  iframe Hp HO Ht1 Ht2 Ht3 Ht4 HhA HhB HhC Hp0 Hc0 Hp2 HrK0 HrK1 HrK2 HrK3 HxA HxB HxC HA0
  iintro ⟨HO, Hc3, Hc4, Hq0, Hbar, Hq2, HxA, HhA, HA0⟩
  unfold barPay
  icases Hbar with ⟨HlA0, HlA1, HlA2, HlA3, HlD0, HlD1⟩

  iapply (part3_proof m K c _ _ _ _ _ _)
  iframe Hp HO HxA HA0 HlA0 Ht5 Ht9 HlA1 Ht6 Ht10 HA1 HA2
  iintro ⟨HO, HxA, Hc5, Hc6, HA2⟩

  iapply (part4_proof m K c _ _ _ _ _ _)
  iframe Hp HO HxA HA2 HlA2 Ht7 Ht11 HlA3 Ht8 Ht12 Hp3 Hc3 HA3
  iintro ⟨HO, HxA, Hc7, Hc8, Hq3, HxB, HhB⟩

  iapply (part5_proof m K c _ _ _ _ _)
  iframe Hp HO HxB HlD0 Ht13 Ht15 HlD1 Ht14 Ht16 HD0 HD1
  iintro ⟨HO, HxB, Hc13, Hc14⟩

  iapply (part6_proof m K c _ _ _ _ _ _ _ _ _ _)
  iframe Hp HO Hp4 Hc4 Hp1 Hc1 Hp9 Hc9 Ht17 Ht21 HKp
  iintro %w192 ⟨HO, Hq4, HxC, HhC, HKp, Hq1, HlF1, HlF2, HlF3, Hq9, Hc17⟩

  iapply (part7_proof m K c _ _ _ _ _ _ _ _ _)
  iframe Hp HO Hp10 Hc10 HlF1 Ht18 Ht22 Hp11 Hc11
  iintro %w226 %w64 ⟨HO, Hq10, Hc18, Hq11, HrA2⟩

  iapply (part8_proof m K c _ _ _ _ _ _ _ _ _ _)
  iframe Hp HO HrA2 HlF2 Ht19 Ht23 Hp12 Hc12
  iintro ⟨HO, Hc19, Hq12, HrA3⟩

  iapply (part9_proof m K c _ _ _ _ _ _)
  iframe Hp HO HrA3 HlF3 Ht20 Ht24 Hp15 Hc15 Hp16 Hc16
  iintro ⟨HO, Hc20, Hq15, HrD0, Hq16, HrD1⟩

  iapply (part10_proof m K c _ _ _ _)
  iframe Hp HO Hp21 Hc21 Hp5 Hc5 Hp17 Hc17 Hp22 Hc22 Hp6 Hc6
  iintro ⟨HO, Hq21, HrK0, Hq5, HA0, Hq17, HF0, Hq22, HrK1, Hq6, HA1⟩

  iapply (part11_proof m K c _ _ _ _)
  iframe Hp HO Hp18 Hc18 Hp23 Hc23 Hp7 Hc7 Hp19 Hc19 Hp24 Hc24
  iintro ⟨HO, Hq18, HF1, Hq23, HrK2, Hq7, HA2, Hq19, HF2, Hq24, HrK3⟩

  simp only [Prog.lift, Prog.bind_op, Prog.bind_ret, Prog.pure_eq_ret]
  unfold owesE
  icases HO with ⟨%W1, HO⟩
  iapply (wait_dma m K c 8 12 (mw12 c 8) (hq := by rfl) (hamt := by rfl) _) $$ [$]
  rw [show pay m c 8 = pts (slA c 3) c (outF m c) from rfl, wp_ret]
  iintro ⟨HO, Hq8, HA3⟩; imodintro
  iapply (wait_dma m K c 20 12 (mw12 c 20) (hq := by rfl) (hamt := by rfl) _) $$ [$]
  rw [show pay m c 20 = pts (slF c 3) c (outF m c) from rfl, wp_ret]
  iintro ⟨HO, Hq20, HF3⟩; imodintro
  iapply (wait_dma m K c 13 12 (mw12 c 13) (hq := by rfl) (hamt := by rfl) _) $$ [$]
  rw [show pay m c 13 = pts (slD c 0) c (outF m c) from rfl, wp_ret]
  iintro ⟨HO, Hq13, HD0⟩; imodintro
  iapply (wait_dma m K c 14 12 (mw12 c 14) (hq := by rfl) (hamt := by rfl) _) $$ [$]
  rw [show pay m c 14 = pts (slD c 1) c (outF m c) from rfl, wp_ret]
  iintro ⟨HO, Hq14, HD1⟩; imodintro

  imod (finish_cells m K c) $$ [Hq1 Hq2 Hq3 Hq4 Hq5 Hq6 Hq7 Hq8 Hq9 Hq10 Hq11 Hq12 Hq13 Hq14 Hq15 Hq16 Hq17 Hq18 Hq19 Hq20 Hq21 Hq22 Hq23 Hq24] with Hz
  · iframe Hp Hq1 Hq2 Hq3 Hq4 Hq5 Hq6 Hq7 Hq8 Hq9 Hq10 Hq11 Hq12 Hq13 Hq14 Hq15 Hq16 Hq17 Hq18 Hq19 Hq20 Hq21 Hq22 Hq23 Hq24
  rw [wp_ret]; imodintro
  ihave Hh := (hbm_join c (xin m c)) $$ [$]
  ihave Hx := (xv_join c (xin m c)) $$ [$]
  iapply Hk
  unfold bodyPost Φ₁ hbmPts xvAny Dat.owesAt Pipeline.owesWithin
  rw [show (dats m ρ 0 c).owed t₀.succ = 0 from rfl]
  iframe Hh Hz
  isplitl [Hx]; · iexists _; iexact Hx
  isplitl [HO]
  · iexists _; isplitr; rotate_left
    · iexact HO
    ipureintro; exact fun _ _ => Or.inl trivial

  iexists (outF m c)
  isplitr; · (ipureintro; rfl)
  iapply (out_join c (outF m c))
  unfold outPieces
  ihave HF0 := (pts_slF_slA c 0 _) $$ HF0
  ihave HF1 := (pts_slF_slA c 1 _) $$ HF1
  ihave HF2 := (pts_slF_slA c 2 _) $$ HF2
  ihave HF3 := (pts_slF_slA c 3 _) $$ HF3
  iframe

end Chain

end Cert.KernelIdeal.AG
-- ==== Proof.Launch.lean ====
import proofs.«900690_g7700000000000691_dist_ag_v7x_xyz2x4x4_x_m512_n512_bf16_1_alg».proof.Proof.Gen.KernelIdeal.Points
import proofs.«900690_g7700000000000691_dist_ag_v7x_xyz2x4x4_x_m512_n512_bf16_1_alg».proof.Proof.Credit

noncomputable section

namespace Cert.KernelIdeal.AG

open Cert.KernelIdeal.Gen
open Idealize.ShloMosaic Idealize.ShloMosaic.TcCoe Idealize.ShloMosaic.Rounds
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ UU ℕ

namespace Launch

variable (m : (ℓ : Loc nD τ sig) → Buf (Elt F) ℓ) (ρ : Dev nD → PrngReg)

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def SoundBody : Prop :=
  ∀ (K : Dev nD × Fin 25 → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

/-- The launch theorem's body obligation on device `c`, from the body lemma. -/
theorem body_obligation (hsb : SoundBody m ρ) (c : Dev nD) :
    BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc ∗ (∃ d, stg c cc0_stg0_0 ((dats m ρ 0 c).before (0 : Fin 1) t₀ d)))
    ⊢ wp frame (wpE (defs₀ (F := F)) 𝒱₀ c none) Set.univ (theBody (F := F)) (fun _ => bodyPost m ρ c)
  unfold Φ₀ start
  iintro ⟨⟨⟨⟨%K, Hg⟩, Hcr, Hlev, Hh⟩, Hx⟩, Ho, Hs⟩
  iapply (hsb K c fun _ => bodyPost m ρ c)
  unfold bodyPre
  iframe Hg Hcr Hlev Hh Hx Ho Hs
  iintro H; iexact H

abbrev osem : Fin 24 → SemLoc sig := fun i => csem ⟨i.val + 1, Nat.succ_lt_succ i.isLt⟩

theorem ownSemFacts : Pipeline.OwnSemFacts cfg0.spec osem := by decide

theorem share_eq (c : Dev nD) (w : Fin cfg0.W) : (dats m ρ 0 c).share w = fullShare := by
  unfold Dat.share; split <;> rfl

theorem kcell_injective : Function.Injective (kcell : Dev nD × Fin 25 → GSem nD τ sig) :=
  fun _ _ h => Prod.ext_iff.mpr (kcell_eq_iff.mp h)

def ringCells : Finset (GSem nD τ sig) := Finset.univ.map ⟨kcell, kcell_injective⟩
def ringToks : Finset (GSem nD τ sig × ℕ × Unit) :=
  Finset.univ.map ⟨fun ck : Dev nD × Fin 25 => (kcell ck, 0, ()), fun _ _ h => kcell_injective (congrArg Prod.fst h)⟩

def u₀ : UU := (initOf (Pipeline.cells cfgs cellOf_inj) (Pipeline.launchToks cfgs cellOf_inj), initOf ringCells ringToks)

def toks (c : Dev nD) : sProp 𝕄 := bigSep Finset.univ fun j : Fin 25 => dutyTok ER (kcell (c, j)) 0 ()

def G (c : Dev nD) : sProp 𝕄 :=
  iprop((bigSep Finset.univ fun j : Fin 25 => roundState ER (sched m) (kcell (c, j)) 0)
    ∗ (bigSep Finset.univ fun j : Fin 25 => iprop(atPos ER (kcell (c, j)) 0 ∅ 0 ∗ reached ER (kcell (c, j)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 25 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  unfold G; simp only [hX, hT, bigSep_sep']
  iframe

omit [FloatOps F] in
theorem bigSep_fin25 (Φ : Fin 25 → sProp 𝕄) :
    bigSep Finset.univ Φ = iprop(Φ 0 ∗ bigSep Finset.univ fun i : Fin 24 => Φ i.succ) := by
  rw [Fin.univ_succ, Finset.cons_eq_insert, BI.bigSep_insert (by simp), BI.bigSep_map]; rfl

omit [FloatOps F] in

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in

theorem sems0_eq (c : Dev nD) :
    iprop((Pipeline.ownSems0 osem c : sProp 𝕄) ∗ unscopedSems0 c)
      ⊢ (bigSep Finset.univ fun j : Fin 25 => semVal (kcell (c, j)) 0 : sProp 𝕄) := by
  rw [unscopedSems0_eq, bigSep_fin25]
  exact Laws.sep_comm.1

theorem core_alloc (c : Dev nD) :
    iprop((Pipeline.ownSems0 osem c : sProp 𝕄) ∗ unscopedSems0 c ∗ G m c)
      ⊢ |={Set.univ}=> iprop((bigSep Finset.univ fun j : Fin 25 => iprop(∃ κ : ℕ, cellInv ER (sched m) κ (kcell (c, j))))
          ∗ (bigSep Finset.univ fun j : Fin 25 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [$]
  imod (show iprop((bigSep Finset.univ fun j : Fin 25 => semVal (kcell (c, j)) 0) ∗ bigSep Finset.univ fun j : Fin 25 => roundState ER (sched m) (kcell (c, j)) 0)
      ⊢ (|={Set.univ}=> bigSep Finset.univ fun j : Fin 25 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [$] with Hinv
  imodintro
  iframe Hinv Hat Htok

def prE (j : Fin 25) : Dev nD ≃ Dev nD := ⟨fun c => pr c j, fun c => pr c j, fun c => pr_pr c j, fun c => pr_pr c j⟩

omit [FloatOps F] in

/-- Cell by cell, each device's token goes to the device that pays that cell: paying is an involution of the devices. -/
theorem toks_around : (bigSep Finset.univ fun c : Dev nD => (toks c : sProp 𝕄)) ⊢ bigSep Finset.univ fun c : Dev nD => payToks c := by
  unfold toks payToks
  rw [BI.bigSep_univ_comm (fun (c : Dev nD) (j : Fin 25) => (dutyTok ER (kcell (c, j)) 0 () : sProp 𝕄)),
    BI.bigSep_univ_comm (fun (c : Dev nD) (j : Fin 25) => (dutyTok ER (kcell (pr c j, j)) 0 () : sProp 𝕄))]
  exact bigSep_mono fun j _ => Entails.of_eq (bigSep_univ_equiv (prE j) (fun c : Dev nD => (dutyTok ER (kcell (c, j)) 0 () : sProp 𝕄)))

theorem ghost_intro (K : Dev nD × Fin 25 → ℕ) (c : Dev nD) : iprop(records m K ∗ (posns c ∗ payToks c)) ⊢ G' m c := by
  unfold G' ghost
  iintro ⟨#HR, Hp, Ht⟩
  iexists K
  iframe HR Hp Ht

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (Laws.sep_mono_left (BI.bigSep_of_persistent S R)).trans (by rw [← bigSep_sep']; exact bigSep_mono h)

theorem regroup :
    (bigSep Finset.univ fun c : Dev nD => iprop((bigSep Finset.univ fun j : Fin 25 => iprop(∃ κ : ℕ, cellInv ER (sched m) κ (kcell (c, j))))
          ∗ (bigSep Finset.univ fun j : Fin 25 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 25 => iprop(∃ κ : ℕ, cellInv ER (sched m) κ (kcell ck))),
    bigSep_congr (s := Finset.univ) (fun (c : Dev nD) _ => bigSep_sep' Finset.univ (fun j : Fin 25 => (atPos ER (kcell (c, j)) 0 ∅ 0 : sProp 𝕄)) (fun j => reached ER (kcell (c, j)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; iframe HI HR
  · iapply (Entails.of_eq (bigSep_sep' Finset.univ (fun c : Dev nD => (posns c : sProp 𝕄)) payToks).symm)
    isplitl [Hat]; · iexact Hat
    iexact Htk

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hh, Hlev, Hcr, -, HG⟩
  ihave Hc := (creds_intro (F := F) c) $$ Hcr
  imodintro
  unfold start G' hbmPts xin
  iframe HG Hc Hlev Hh

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ xvAny
  iintro ⟨Hs, -, Hr⟩
  iframe Hs Hr

omit [FloatOps F] in

theorem ownSems0_eq (c : Dev nD) :
    (Pipeline.ownSems0 osem c : sProp 𝕄) = ownZero c := by
  unfold ownZero Pipeline.ownSems0
  rw [show (Finset.univ.erase (0 : Fin 25)) = Finset.univ.map (Fin.succEmb 24) from by decide, BI.bigSep_map]
  rfl

theorem phi1_exit (c : Dev nD) :
    (dats m ρ 0 c).Φ (Fin.last cfg0.N) ⊢ iprop(hbmPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ xvAny
  iintro ⟨Hh, Hx, Hz⟩
  iframe Hh Hz Hx

theorem waits (c : Dev nD) : (levAts L lv : sProp 𝕄) ⊢ Pipeline.cellsWaits cfgs (dats m ρ) () 0 c :=
  Pipeline.cellsWaits_intro cfgs (dats m ρ) () 0 c fun w s t => by
    have hs : ((cfgs 0).win w).sem s = dS 0 := by fin_cases w; fin_cases s; rfl
    rw [hs]
    exact mayWait_stage c _ (by
      rcases t with ⟨_ | _, ht⟩
      · exact Or.inl rfl
      · exact Or.inr rfl)

/-- The result's one block is the whole array, so the array ends at the contents the body produced. -/
theorem final_out (c : Dev nD) : (dats m ρ 0 c).arrAt (0 : Fin 1) cfg0.N = outF m c := by
  have h := (dats m ρ 0 c).arrAt_succ (0 : Fin 1) t₀
  rw [flush0_0 t₀, if_pos rfl] at h
  have hN : cfg0.N = t₀.val + 1 := cfg0_N
  rw [hN, h]
  have hv : ∀ f : (main_v1 : Ref sig .tc).ty.Contents (Elt F), ((cfg0.win 0).blk t₀).view.read (Elt F) f = f := fun f =>
    Memref.read_access_unit_zero (Elt F) main_v1 (funext fun a => Nat.zero_mul _) _ f
  exact ((hv _).symm.trans (View.read_write_univ _ _)).trans rfl

/-- Given the body lemma, every fair run ends with each device's result at `outF` and its block of `x` unchanged. -/
theorem kernel_run_of (hsb : SoundBody m ρ) :
    θ_run (defs (F := F)) (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hsb) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe HP HG)
    (hglob := ((bigSep_mono fun c _ => core_alloc m c).trans (bigSep_fupd _ _)).trans (BI.fupd_mono (regroup m)))
    (hA := fun _ _ => rfl) (hpf := fun _ k => k.elim0)
    (X := start m) (Y := hbmPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold hbmPts xin
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

end Launch

end Cert.KernelIdeal.AG

end
-- ==== Proof.W.Sched.lean ====
import proofs.«900690_g7700000000000691_dist_ag_v7x_xyz2x4x4_x_m512_n512_bf16_1_alg».proof.Proof.Gen.Kernel.Skeleton
import proofs.«900690_g7700000000000691_dist_ag_v7x_xyz2x4x4_x_m512_n512_bf16_1_alg».proof.Proof.Gen.Kernel.Launch
import Idealize.ShloMosaic.Lib.ValueIdx
import Idealize.ShloMosaic.Lib.Tactic

noncomputable section

namespace Cert.Kernel.AG

open Cert.Kernel.Gen
open Idealize.ShloMosaic Idealize.ShloMosaic.TcCoe Idealize.ShloMosaic.Rounds
open Idealize.SL Idealize.SL.RA Idealize.SL.BI Idealize.SL.BI.BIBase Idealize.SL.Sem
open Idealize.ShloMosaic.Pipeline (Dat)

variable {F : FTy → Type} [FloatOps F]

theorem px_lt : ∀ c : Dev nD, (c.val + 16) % 32 < nD := by decide
theorem pz_lt : ∀ c : Dev nD, c.val + 1 - 2 * (c.val % 2) < nD := by decide

/-- At mesh coordinates `(c / 16, c / 4 % 4, c % 4)`: the x-partner flips x, the z-partner the low bit of z; both are involutions. -/
def px (c : Dev nD) : Dev nD := ⟨(c.val + 16) % 32, px_lt c⟩
def pz (c : Dev nD) : Dev nD := ⟨c.val + 1 - 2 * (c.val % 2), pz_lt c⟩

theorem px_px : ∀ c : Dev nD, px (px c) = c := by decide
theorem pz_pz : ∀ c : Dev nD, pz (pz c) = c := by decide

/-- The program's device chains are the two partner maps. -/
theorem dev1_eq : ∀ c : Dev nD, (⟨k0_dev1 c, k0_dev1_lt c⟩ : Dev nD) = px c := by decide +kernel
theorem dev2_eq : ∀ c : Dev nD, (⟨k0_dev2 c, k0_dev2_lt c⟩ : Dev nD) = pz c := by decide +kernel
theorem dev3_eq : ∀ c : Dev nD, (⟨k0_dev3 c, k0_dev3_lt c⟩ : Dev nD) = px c := by decide +kernel
theorem dev4_eq : ∀ c : Dev nD, (⟨k0_dev4 c, k0_dev4_lt c⟩ : Dev nD) = px c := by decide +kernel
theorem dev5_eq : ∀ c : Dev nD, (⟨k0_dev5 c, k0_dev5_lt c⟩ : Dev nD) = px c := by decide +kernel
theorem dev6_eq : ∀ c : Dev nD, (⟨k0_dev6 c, k0_dev6_lt c⟩ : Dev nD) = px c := by decide +kernel
theorem dev7_eq : ∀ c : Dev nD, (⟨k0_dev7 c, k0_dev7_lt c⟩ : Dev nD) = px c := by decide +kernel
theorem dev8_eq : ∀ c : Dev nD, (⟨k0_dev8 c, k0_dev8_lt c⟩ : Dev nD) = px c := by decide +kernel
theorem dev9_eq : ∀ c : Dev nD, (⟨k0_dev9 c, k0_dev9_lt c⟩ : Dev nD) = pz c := by decide +kernel
theorem dev10_eq : ∀ c : Dev nD, (⟨k0_dev10 c, k0_dev10_lt c⟩ : Dev nD) = pz c := by decide +kernel
theorem dev11_eq : ∀ c : Dev nD, (⟨k0_dev11 c, k0_dev11_lt c⟩ : Dev nD) = pz c := by decide +kernel
theorem dev12_eq : ∀ c : Dev nD, (⟨k0_dev12 c, k0_dev12_lt c⟩ : Dev nD) = pz c := by decide +kernel

abbrev barS : Sem sig := (SemArray.scalar (sig.barrier 0 rfl) : Sems sig S_).sem
abbrev pzS : Sem sig := (cc0_scoped0 : Sems sig S_).sem

abbrev dS (j : Fin 24) : DmaSem sig := j

variable (m : (ℓ : Loc nD τ sig) → Buf (Elt F) ℓ) (ρ : Dev nD → PrngReg)

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

def s₀ : MemSt nD τ sig (Elt F) := ⟨m, fun _ => 0, ρ⟩

abbrev oM : Memref sig .tc .vmem S1024x512 .bf16 := Memref.whole cc0_stg0_0
abbrev xM : Memref sig .tc .vmem S512x512 .f32 := Memref.whole cc0_scratch0
abbrev hM : Memref sig .tc .hbm S512x512 .f32 := Memref.whole main_arg0

abbrev w32 (k : Fin 4) : BitVec 32 := BitVec.ofNat 32 (32 * k.val)
abbrev w128 (k : Fin 2) : BitVec 32 := BitVec.ofNat 32 (128 * k.val)

abbrev slA (c : Dev nD) (k : Fin 4) : Memref sig .tc .vmem S32x512 .bf16 :=
  oM.slice (Rect.unit (s := S1024x512) (k0_off5 c (w32 k)) S32x512.size (k0_off5_inb c k)) (fun _ => rfl)

abbrev slD (c : Dev nD) (k : Fin 2) : Memref sig .tc .vmem S128x512 .bf16 :=
  oM.slice (Rect.unit (s := S1024x512) (k0_off7 c (w128 k)) S128x512.size (k0_off7_inb c k)) (fun _ => rfl)

abbrev slK (c : Dev nD) : Memref sig .tc .vmem S128x512 .bf16 :=
  oM.slice (Rect.unit (s := S1024x512) (k0_off9 c) S128x512.size (k0_off9_inb c)) (fun _ => rfl)

abbrev slF (c : Dev nD) (k : Fin 4) : Memref sig .tc .vmem S32x512 .bf16 :=
  oM.slice (Rect.unit (s := S1024x512) (k0_off10 c (w32 k)) S32x512.size (k0_off10_inb c k)) (fun _ => rfl)

abbrev xvA (c : Dev nD) : Memref sig .tc .vmem S128x512 .f32 := xM.slice (Rect.unit (s := S512x512) (k0_off1 c) S128x512.size (k0_off1_inb c)) (fun _ => rfl)
abbrev xvB : Memref sig .tc .vmem S256x512 .f32 := xM.slice (Rect.unit (s := S512x512) ![256, 0] S256x512.size inb_S512x512_S256x512_256_0) (fun _ => rfl)
abbrev xvC (c : Dev nD) : Memref sig .tc .vmem S128x512 .f32 := xM.slice (Rect.unit (s := S512x512) (k0_off2 c) S128x512.size (k0_off2_inb c)) (fun _ => rfl)
abbrev hbA (c : Dev nD) : Memref sig .tc .hbm S128x512 .f32 := hM.slice (Rect.unit (s := S512x512) (k0_off1 c) S128x512.size (k0_off1_inb c)) (fun _ => rfl)
abbrev hbB : Memref sig .tc .hbm S256x512 .f32 := hM.slice (Rect.unit (s := S512x512) ![256, 0] S256x512.size inb_S512x512_S256x512_256_0) (fun _ => rfl)
abbrev hbC (c : Dev nD) : Memref sig .tc .hbm S128x512 .f32 := hM.slice (Rect.unit (s := S512x512) (k0_off2 c) S128x512.size (k0_off2_inb c)) (fun _ => rfl)

theorem off5_px : ∀ (c : Dev nD) (k : Fin 4), k0_off5 (px c) (w32 k) = k0_off10 c (w32 k) := by decide +kernel
theorem off4_eq_off5 : ∀ (c : Dev nD) (k : Fin 4), k0_off4 c (w32 k) = k0_off5 c (w32 k) := by decide +kernel
theorem off6_eq_off7 : ∀ (c : Dev nD) (k : Fin 2), k0_off6 c (w128 k) = k0_off7 c (w128 k) := by decide +kernel

abbrev N32 : ℕ := (slA (0 : Dev nD) 0).view.dmaCredit
abbrev N128 : ℕ := (slK (0 : Dev nD)).view.dmaCredit
abbrev NxA : ℕ := (xvA (0 : Dev nD)).view.dmaCredit
abbrev NxB : ℕ := (xvB).view.dmaCredit
theorem N32_pos : 0 < N32 := View.dmaCredit_pos _ (by decide)
theorem N128_pos : 0 < N128 := View.dmaCredit_pos _ (by decide)
theorem NxA_pos : 0 < NxA := View.dmaCredit_pos _ (by decide)
theorem NxB_pos : 0 < NxB := View.dmaCredit_pos _ (by decide)

def xin (c : Dev nD) : S512x512.Idx → Elt F .f32 := m ((c : Thread nD τ).loc main_arg0)

/-- Whose block row `i 0` of `c`'s result comes from: `c` itself, else its x-partner, but on the forwarded band the z-partner's x-partner. -/
def rowSrc (c : Dev nD) (i : S1024x512.Idx) : Dev nD :=
  if (i 0).val / 512 = c.val / 16 then c
  else if 128 * ((c.val % 4) % 2) ≤ (i 0).val % 512 ∧ (i 0).val % 512 < 128 * ((c.val % 4) % 2) + 128 then px (pz c) else px c

def loc512 (i : S1024x512.Idx) : S512x512.Idx :=
  ValueIdx.ix2 (⟨(i 0).val % 512, Nat.mod_lt _ (by decide)⟩ : Fin 512) (⟨(i 1).val, (i 1).isLt⟩ : Fin 512)

/-- Device `c`'s result: row by row the source device's block, narrowed to bf16. -/
def outF (c : Dev nD) : S1024x512.Idx → Elt F .bf16 :=
  fun i => FloatOps.truncf .bf16 bitsLt_bf16_f32 (xin m (rowSrc c i) (loc512 i))

/-- Cells: 0 barrier, 1 z-handshake, 2–4 local copies, then send / receive cells of chunks: 5–8 / 9–12, 13–14 / 15–16, 17–20 / 21–24. -/
def csem (j : Fin 25) : SemLoc sig :=
  if j.val = 0 then .reg barS else if j.val = 1 then .reg pzS
  else .dma (dS ⟨j.val - 1, by have := j.isLt; omega⟩)

abbrev kcell (ck : Dev nD × Fin 25) : GSem nD τ sig := ((ck.1 : Thread nD τ), csem ck.2)

def kindOf : SemLoc sig → Option (Fin 25)
  | .reg s => some (if s = barS then 0 else 1)
  | .dma q => if q.val = 0 then none else some ⟨q.val + 1, Nat.succ_lt_succ (show q.val < 24 from q.isLt)⟩

theorem kindOf_csem : ∀ j : Fin 25, kindOf (csem j) = some j := by decide
theorem csem_injective : Function.Injective csem := by decide

/-- Who pays the one duty of cell `j` of device `c`, and (the partner maps being involutions) whose cell `j` device `c` pays. -/
def pr (c : Dev nD) (j : Fin 25) : Dev nD :=
  if j.val = 0 ∨ (9 ≤ j.val ∧ j.val ≤ 12) ∨ (15 ≤ j.val ∧ j.val ≤ 16) then px c
  else if j.val = 1 ∨ 21 ≤ j.val then pz c else c

theorem pr_pr : ∀ (c : Dev nD) (j : Fin 25), pr (pr c j) j = c := by decide

abbrev pts {sp : Space} {s : Shape} {e : EltTy} (M : Memref sig .tc sp s e) (c : Dev nD)
    (f : Buf (Elt F) (M.view.loc (c : Thread nD τ))) : sProp 𝕄 :=
  M.view.loc (c : Thread nD τ) ↦[M.view.set]{fullShare} f

def ptsAny {sp : Space} {s : Shape} {e : EltTy} (M : Memref sig .tc sp s e) (c : Dev nD) : sProp 𝕄 :=
  iprop(∃ f : Buf (Elt F) (M.view.loc (c : Thread nD τ)), pts M c f)

instance ptsAny_storable {sp : Space} {s : Shape} {e : EltTy} (M : Memref sig .tc sp s e) (c : Dev nD) :
    BI.Storable (upEmb : UEmb _ 𝕄) (ptsAny (F := F) M c) := by unfold ptsAny; infer_instance

def barPay (c : Dev nD) : sProp 𝕄 :=
  iprop(ptsAny (slA c 0) (px c) ∗ ptsAny (slA c 1) (px c) ∗ ptsAny (slA c 2) (px c) ∗ ptsAny (slA c 3) (px c)
    ∗ ptsAny (slD c 0) (px c) ∗ ptsAny (slD c 1) (px c))

def pzPay (c : Dev nD) : sProp 𝕄 :=
  iprop(ptsAny (slF c 0) (pz c) ∗ ptsAny (slF c 1) (pz c) ∗ ptsAny (slF c 2) (pz c) ∗ ptsAny (slF c 3) (pz c))

/-- A signal hands over landing pieces, a landing the piece written at its final contents, a departure the source piece back. -/
def pay (c : Dev nD) (j : Fin 25) : sProp 𝕄 :=
  match j with
  | ⟨0, _⟩ => barPay c
  | ⟨1, _⟩ => pzPay c
  | ⟨2, _⟩ => iprop(pts (xvA c) c (xin m c) ∗ pts (hbA c) c (xin m c))
  | ⟨3, _⟩ => iprop(pts xvB c (xin m c) ∗ pts hbB c (xin m c))
  | ⟨4, _⟩ => iprop(pts (xvC c) c (xin m c) ∗ pts (hbC c) c (xin m c))
  | ⟨5, _⟩ => pts (slA c 0) c (outF m c)
  | ⟨6, _⟩ => pts (slA c 1) c (outF m c)
  | ⟨7, _⟩ => pts (slA c 2) c (outF m c)
  | ⟨8, _⟩ => pts (slA c 3) c (outF m c)
  | ⟨9, _⟩ => pts (slA (px c) 0) c (outF m c)
  | ⟨10, _⟩ => pts (slA (px c) 1) c (outF m c)
  | ⟨11, _⟩ => pts (slA (px c) 2) c (outF m c)
  | ⟨12, _⟩ => pts (slA (px c) 3) c (outF m c)
  | ⟨13, _⟩ => pts (slD c 0) c (outF m c)
  | ⟨14, _⟩ => pts (slD c 1) c (outF m c)
  | ⟨15, _⟩ => pts (slD (px c) 0) c (outF m c)
  | ⟨16, _⟩ => pts (slD (px c) 1) c (outF m c)
  | ⟨17, _⟩ => pts (slF c 0) c (outF m c)
  | ⟨18, _⟩ => pts (slF c 1) c (outF m c)
  | ⟨19, _⟩ => pts (slF c 2) c (outF m c)
  | ⟨20, _⟩ => pts (slF c 3) c (outF m c)
  | ⟨21, _⟩ => pts (slF (pz c) 0) c (outF m c)
  | ⟨22, _⟩ => pts (slF (pz c) 1) c (outF m c)
  | ⟨23, _⟩ => pts (slF (pz c) 2) c (outF m c)
  | ⟨_, _⟩ => pts (slF (pz c) 3) c (outF m c)

def amt (j : Fin 25) : ℕ :=
  if j.val ≤ 1 then 1 else if j.val = 2 ∨ j.val = 4 then NxA else if j.val = 3 then NxB
  else if (13 ≤ j.val ∧ j.val ≤ 16) then N128 else N32

theorem amt_pos (j : Fin 25) : 0 < amt j := by
  unfold amt; (repeat' split) <;> first | exact Nat.one_pos | exact NxA_pos | exact NxB_pos | exact N128_pos | exact N32_pos

def sched : Rounds.Schedule (GSem nD τ sig) Unit 𝕄 where
  duties g r := if r = 0 ∧ g.1.2 = .tc ∧ (kindOf g.2).isSome then {()} else ∅
  unitless _ := False
  amount g _ _ := match kindOf g.2 with | some j => amt j | none => 1
  payload g _ _ := match kindOf g.2 with | some j => pay m g.1.1 j | none => iprop(emp)
  amount_pos g _ _ _ := by
    cases h : kindOf g.2 with
    | none => exact Nat.one_pos
    | some j => exact amt_pos j

instance pay_storable (c : Dev nD) (j : Fin 25) : BI.Storable (upEmb : UEmb _ 𝕄) (pay (F := F) m c j) := by
  unfold pay barPay pzPay
  (repeat' split) <;> infer_instance

instance sched_payload_storable (g : GSem nD τ sig) (r : ℕ) (d : Unit) :
    BI.Storable (upEmb : UEmb _ 𝕄) ((sched (F := F) m).payload g r d) := by
  show BI.Storable upEmb (match kindOf g.2 with | some j => pay m g.1.1 j | none => iprop(emp))
  split <;> infer_instance

section Tables
variable (c : Dev nD) (j : Fin 25)

theorem duties_cell : (sched (F := F) m).duties (kcell (c, j)) 0 = {()} := by
  dsimp only [sched]; exact if_pos ⟨rfl, rfl, by rw [kindOf_csem]; rfl⟩
theorem duties_later (g : GSem nD τ sig) : ∀ r, 1 ≤ r → (sched (F := F) m).duties g r = ∅ :=
  fun r hr => by dsimp only [sched]; rw [if_neg fun h => by omega]
theorem amount_cell (d : Unit) : (sched (F := F) m).amount (kcell (c, j)) 0 d = amt j := by
  dsimp only [sched]; rw [kindOf_csem]
theorem expect_cell : (sched (F := F) m).expect (kcell (c, j)) 0 = amt j := by
  unfold Schedule.expect Schedule.amountOf; rw [duties_cell, Finset.sum_singleton, amount_cell]
theorem payload_cell (d : Unit) : (sched (F := F) m).payload (kcell (c, j)) 0 d = pay m c j := by
  dsimp only [sched]; rw [kindOf_csem]
theorem rest_cell : bigSep ((sched (F := F) m).duties (kcell (c, j)) 0 \ ∅) (fun d => (sched (F := F) m).payload (kcell (c, j)) 0 d) = pay m c j := by
  rw [Finset.sdiff_empty, duties_cell, bigSep_singleton, payload_cell]

end Tables

/-- What device `c` owes at launch, in the order it pays: two signals, then the arrival of each of its ten addressed copies. -/
def dues (c : Dev nD) : List (GSem nD τ sig × ℕ) :=
  [(kcell (px c, 0), 1), (kcell (pz c, 1), 1),
   (kcell (px c, 9), N32), (kcell (px c, 10), N32), (kcell (px c, 11), N32), (kcell (px c, 12), N32),
   (kcell (px c, 15), N128), (kcell (px c, 16), N128),
   (kcell (pz c, 21), N32), (kcell (pz c, 22), N32), (kcell (pz c, 23), N32), (kcell (pz c, 24), N32)]

def Osum (l : List (GSem nD τ sig × ℕ)) : CellTallies nD τ sig Unit := l.foldr (fun x acc => acc + tallyAt x.1 () x.2) 0

theorem Osum_cons (x : GSem nD τ sig × ℕ) (l : List (GSem nD τ sig × ℕ)) : Osum (x :: l) = Osum l + tallyAt x.1 () x.2 := rfl
theorem Osum_nil : Osum ([] : List (GSem nD τ sig × ℕ)) = 0 := rfl

def Oat (c : Dev nD) (i : ℕ) : CellTallies nD τ sig Unit := Osum ((dues c).drop i)
def O₀ (c : Dev nD) : CellTallies nD τ sig Unit := Oat c 0

def L (g : GSem nD τ sig) : Finset Unit := if g.1.2 = .tc then {()} else ∅

/-- A device waits on a cell only while all it still owes lies strictly above that cell's level. -/
def lv (g : GSem nD τ sig) (_ : Unit) : ℕ :=
  match kindOf g.2 with
  | some j => if 21 ≤ j.val then 3 else if (9 ≤ j.val ∧ j.val ≤ 12) ∨ (15 ≤ j.val ∧ j.val ≤ 16) then 2 else 1
  | none => 0

theorem L_of_ne (g : GSem nD τ sig) (h : g.1.2 ≠ .tc) : L g = ∅ := if_neg h
theorem L_tc (c : Dev nD) (sm : SemLoc sig) : L ((c : Thread nD τ), sm) = {()} := if_pos rfl

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def records (K : Dev nD × Fin 25 → ℕ) : sProp 𝕄 :=
  iprop((bigSep Finset.univ fun ck : Dev nD × Fin 25 => cellInv ER (sched m) (K ck) (kcell ck))
    ∗ bigSep Finset.univ fun ck : Dev nD × Fin 25 => reached ER (kcell ck) 0)

instance records_persistent (K : Dev nD × Fin 25 → ℕ) : BI.Persistent (records (F := F) m K) := by unfold records; infer_instance

def payToks (c : Dev nD) : sProp 𝕄 := bigSep Finset.univ fun j : Fin 25 => dutyTok ER (kcell (pr c j, j)) 0 ()

def posns (c : Dev nD) : sProp 𝕄 := bigSep Finset.univ fun j : Fin 25 => atPos ER (kcell (c, j)) 0 ∅ 0

def ghost (K : Dev nD × Fin 25 → ℕ) (c : Dev nD) : sProp 𝕄 := iprop(records m K ∗ posns c ∗ payToks c)

def remoteJ : Finset (Fin 25) := {0, 1, 9, 10, 11, 12, 15, 16, 21, 22, 23, 24}

def creds (c : Dev nD) : sProp 𝕄 := bigSep remoteJ fun j => cred (tallyAt (kcell (c, j)) () (amt j))

def hbmPts (c : Dev nD) : sProp 𝕄 := ((c : Thread nD τ).loc main_arg0) ↦{fullShare} xin m c

def xvAny (c : Dev nD) : sProp 𝕄 := iprop(∃ f : Buf (Elt F) ((c : Thread nD τ).loc cc0_scratch0), ((c : Thread nD τ).loc cc0_scratch0) ↦{fullShare} f)

def start (c : Dev nD) : sProp 𝕄 := iprop((∃ K, ghost m K c) ∗ creds c ∗ levAts L lv ∗ hbmPts m c)

def Φ₀ (c : Dev nD) : sProp 𝕄 := iprop(start m c ∗ xvAny c)

def ownZero (c : Dev nD) : sProp 𝕄 := bigSep (Finset.univ.erase (0 : Fin 25)) fun j => semVal (kcell (c, j)) 0

def Φ₁ (c : Dev nD) : sProp 𝕄 := iprop(hbmPts m c ∗ xvAny c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 25 → ℕ) (c : Dev nD) : sProp 𝕄 :=
  iprop((ghost m K c ∗ creds c ∗ levAts L lv ∗ hbmPts m c ∗ xvAny c)
    ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m c ∗ (dats m ρ 0 c).owesAt () t₀.succ ∗ stg c cc0_stg0_0 (outF m c))

/-- A function of the body's sixteen buffers and semaphores, at the ones the launch calls the body with. -/
abbrev atLaunch {β : Type 1} (p : (a0 : Memref sig .tc .hbm S512x512 .f32) → a0.IsWhole → (a1 : Memref sig .tc .vmem S1024x512 .bf16) → a1.IsWhole →
    (a2 : Memref sig .tc .vmem S512x512 .f32) → a2.IsWhole → DmaSems sig S_ → DmaSems sig S_ → DmaSems sig S_ → DmaSems sig S4 → DmaSems sig S4 →
    DmaSems sig S2 → DmaSems sig S2 → DmaSems sig S4 → DmaSems sig S4 → Sems sig S_ → β) : β :=
  p (Memref.whole main_arg0) (Memref.isWhole_whole _) (win0_0.stage (0 : Fin 1)) (hstage0_0 0) (Memref.whole cc0_scratch0) (Memref.isWhole_whole _) cc0_scratch1 cc0_scratch2 cc0_scratch3 cc0_scratch4 cc0_scratch5 cc0_scratch6 cc0_scratch7 cc0_scratch8 cc0_scratch9 cc0_scoped0

abbrev theBody : Prog (TpuEff nD τ sig (Elt F) Λ₀ .tc) PUnit := atLaunch (cc0_body (F := F))

end Cert.Kernel.AG

end
-- ==== Proof.W.SegDefs.lean ====
import proofs.«900690_g7700000000000691_dist_ag_v7x_xyz2x4x4_x_m512_n512_bf16_1_alg».proof.Proof.W.Sched

noncomputable section

namespace Cert.Kernel.AG

open Cert.Kernel.Gen
open Idealize.ShloMosaic
open Idealize.ShloMosaic.TcCoe
open Idealize.SL.BI
open Idealize.SL.BI.BIBase
open Idealize.ShloMosaic.Rounds

variable {F : FTy → Type} [FloatOps F]

variable (m : (ℓ : Loc nD τ sig) → Buf (Elt F) ℓ) (ρ : Dev nD → PrngReg)

local notation "𝕄" => MT nD τ sig Unit (Elt F) ℕ UU ℕ

def owesE (c : Dev nD) (i : ℕ) : sProp 𝕄 := iprop(∃ W : Waits sig Unit, owes (c : Thread nD τ) (Oat c i) W)

abbrev tok (c : Dev nD) (j : Fin 25) : sProp 𝕄 := dutyTok ER (kcell (pr c j, j)) 0 ()

abbrev pos0 (c : Dev nD) (j : Fin 25) : sProp 𝕄 := atPos ER (kcell (c, j)) 0 ∅ 0
abbrev pos1 (c : Dev nD) (j : Fin 25) : sProp 𝕄 := atPos ER (kcell (c, j)) 1 ∅ 0

abbrev crd (c : Dev nD) (j : Fin 25) : sProp 𝕄 := cred (tallyAt (kcell (c, j)) () (amt j))

abbrev pers (K : Dev nD × Fin 25 → ℕ) : sProp 𝕄 := iprop(records m K ∗ levAts L lv)

def d0val (c : Dev nD) : FVec F S128x512 .bf16 :=
  k0_pay5 ((xM : Memref sig .tc .vmem S512x512 .f32).view.readAt (Elt F)
    (Rect.unit (s := S512x512) ![256, 0] S128x512.size inb_S512x512_S128x512_256_0).toLoadRect (xin m c))

abbrev pt1 := atLaunch (k0_part1 (F := F))
abbrev pt2 := atLaunch (k0_part2 (F := F))
abbrev pt3 := atLaunch (k0_part3 (F := F))
abbrev pt4 := atLaunch (k0_part4 (F := F))
abbrev pt5 := atLaunch (k0_part5 (F := F))
abbrev pt6 := atLaunch (k0_part6 (F := F))
abbrev pt7 := atLaunch (k0_part7 (F := F))
abbrev pt8 := atLaunch (k0_part8 (F := F))
abbrev pt9 := atLaunch (k0_part9 (F := F))
abbrev pt10 := atLaunch (k0_part10 (F := F))
abbrev pt11 := atLaunch (k0_part11 (F := F))

end Cert.Kernel.AG

end
-- ==== Proof.W.Waits.lean ====
import proofs.«900690_g7700000000000691_dist_ag_v7x_xyz2x4x4_x_m512_n512_bf16_1_alg».proof.Proof.W.SegDefs

noncomputable section

namespace Cert.Kernel.AG

open Idealize.ShloMosaic
open Idealize.ShloMosaic.TcCoe
open Idealize.SL.BI
open Idealize.SL.BI.BIBase Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

theorem inv_at (K : Dev nD × Fin 25 → ℕ) (ck : Dev nD × Fin 25) :
    (bigSep Finset.univ fun ck : Dev nD × Fin 25 => (cellInv ER (sched m) (K ck) (kcell ck) : sProp 𝕄))
      ⊢ cellInv ER (sched m) (K ck) (kcell ck) :=
  bigSep_elim (Finset.mem_univ ck)

theorem reached_at (ck : Dev nD × Fin 25) :
    (bigSep Finset.univ fun ck : Dev nD × Fin 25 => (reached ER (kcell ck) 0 : sProp 𝕄)) ⊢ reached ER (kcell ck) 0 :=
  bigSep_elim (Finset.mem_univ ck)

section Waits
variable (K : Dev nD × Fin 25 → ℕ) (c : Dev nD)

local notation "WP" => wp frame (wpE (defs₀ (F := F)) 𝒱₀ c none) Set.univ

-- The cell's one duty has the wait's amount, so the wait takes the whole round and its payload comes out.
theorem wait_cell (j : Fin 25) (i : ℕ)
    (hMW : (levAts L lv : sProp 𝕄) ⊢ MayWait (c : Thread nD τ) (csem j) () (Oat c i))
    (sm : SemLoc sig) (hsm : csem j = sm)
    {w : TpuEff nD τ sig (Elt F) Λ₀ .tc PUnit}
    (hw : ∀ K' : PUnit → sProp 𝕄,
      wpE (defs₀ (F := F)) 𝒱₀ (c : Thread nD τ) none Set.univ w K' = waitSpec (c : Thread nD τ) Set.univ sm (amt j) K')
    {α : Type} {Q : α → sProp 𝕄} {k : PUnit → Prog (TpuEff nD τ sig (Elt F) Λ₀ .tc) α} (W : Waits sig Unit) :
    iprop(pers m K ∗ pos0 c j ∗ crd c j ∗ owes (c : Thread nD τ) (Oat c i) W)
      ⊢ iprop(((owes (c : Thread nD τ) (Oat c i) (insert (csem j, ()) W) ∗ pos1 c j ∗ pay m c j) -∗ WP (k ⟨⟩) Q)
          -∗ WP (.op w k) Q) := by
  subst hsm
  unfold pers records
  iintro ⟨⟨⟨#HI, #HRc⟩, #Hlev⟩, Hat, Hc, HO⟩ Hk
  iapply (Rounds.wp_wait_rest_token 𝒱₀ ER (sched m) (c : Thread nD τ) none (κ := K (c, j))
      hw (Set.mem_univ _) () (O := Oat c i) (W := W) (R := 0) (m := 0) (T := ∅)
      (by rw [Nat.zero_add]; exact (expect_cell m c j).symm)) $$ [Hc HO Hat]
  · isplitr; · iapply (inv_at m K (c, j)); iexact HI
    iframe Hc HO
    isplitr; · iapply hMW; iexact Hlev
    iexact Hat
  iintro ⟨HO, Hat, -, Hpay⟩
  ihave Hp := (Entails.of_eq (rest_cell m c j)) $$ Hpay
  iapply Hk
  iframe HO Hat Hp

theorem wait_dma (j : Fin 25) (i : ℕ)
    (hMW : (levAts L lv : sProp 𝕄) ⊢ MayWait (c : Thread nD τ) (csem j) () (Oat c i))
    {q : DmaSem sig} (hq : csem j = .dma q)
    {sp sp' : Space} {s s' : Shape} {e e' : EltTy} {κ' : Kind}
    {src : Memref sig .tc sp' s' e'} {dst : Memref sig κ' sp s e}
    {hsrc : src.view.WordExact} {hdst : dst.view.WordExact}
    (hamt : dst.view.dmaCredit = amt j)
    {α : Type} {Q : α → sProp 𝕄} {k : PUnit → Prog (TpuEff nD τ sig (Elt F) Λ₀ .tc) α} (W : Waits sig Unit) :
    iprop(pers m K ∗ pos0 c j ∗ crd c j ∗ owes (c : Thread nD τ) (Oat c i) W)
      ⊢ iprop(((owes (c : Thread nD τ) (Oat c i) (insert (csem j, ()) W) ∗ pos1 c j ∗ pay m c j) -∗ WP (k ⟨⟩) Q)
          -∗ WP (.op (.waitDma2 q src dst hsrc hdst) k) Q) := by
  refine wait_cell m K c j i hMW (.dma q) hq (w := .waitDma2 q src dst hsrc hdst) (fun K' => ?_) W
  have h := wpE_waitDma2_eq (defs := defs₀ (F := F)) 𝒱₀ (c : Thread nD τ) none Set.univ (sem := q) (src := src) (dst := dst) (hsrc := hsrc) (hdst := hdst) K'
  rw [hamt] at h
  exact h

theorem wait_reg (j : Fin 25) (i : ℕ)
    (hMW : (levAts L lv : sProp 𝕄) ⊢ MayWait (c : Thread nD τ) (csem j) () (Oat c i))
    {sem : Sem sig} (hq : csem j = .reg sem) {n : ℕ} (hn : n = amt j)
    {α : Type} {Q : α → sProp 𝕄} {k : PUnit → Prog (TpuEff nD τ sig (Elt F) Λ₀ .tc) α} (W : Waits sig Unit) :
    iprop(pers m K ∗ pos0 c j ∗ crd c j ∗ owes (c : Thread nD τ) (Oat c i) W)
      ⊢ iprop(((owes (c : Thread nD τ) (Oat c i) (insert (csem j, ()) W) ∗ pos1 c j ∗ pay m c j) -∗ WP (k ⟨⟩) Q)
          -∗ WP (.op (.semWait sem n) k) Q) := by
  subst hn
  exact wait_cell m K c j i hMW (.reg sem) hq (w := .semWait sem (amt j))
    (fun K' => wpE_semWait_eq (defs := defs₀ (F := F)) 𝒱₀ (c : Thread nD τ) none Set.univ K') W

end Waits

end Cert.Kernel.AG

end
-- ==== Proof.W.Credit.lean ====
import proofs.«900690_g7700000000000691_dist_ag_v7x_xyz2x4x4_x_m512_n512_bf16_1_alg».proof.Proof.W.Sched

noncomputable section

namespace Cert.Kernel.AG

open Idealize.ShloMosaic
open Idealize.ShloMosaic.TcCoe
open Idealize.SL.BI
open Idealize.SL.BI.BIBase

variable {F : FTy → Type} [FloatOps F]

local notation "𝕄" => MT nD τ sig Unit (Elt F) ℕ UU ℕ

def remoteL : List (Fin 25) := [0, 1, 9, 10, 11, 12, 15, 16, 21, 22, 23, 24]

theorem remoteL_nodup : remoteL.Nodup := by decide
theorem remoteL_toFinset : remoteL.toFinset = remoteJ := by decide

theorem dues_eq (c : Dev nD) : dues c = remoteL.map fun j => (kcell (pr c j, j), amt j) := rfl

theorem kcell_eq_iff {c c' : Dev nD} {j j' : Fin 25} : kcell (c, j) = kcell (c', j') ↔ c = c' ∧ j = j' := by
  constructor
  · intro h
    exact ⟨Fin.ext (congrArg (fun g : GSem nD τ sig => g.1.1.val) h), csem_injective (congrArg Prod.snd h)⟩
  · rintro ⟨rfl, rfl⟩; rfl

theorem Osum_eq_sum (l : List (GSem nD τ sig × ℕ)) : Osum l = (l.map fun x => tallyAt x.1 () x.2).sum := by
  induction l with
  | nil => rfl
  | cons x l ih => rw [Osum_cons, ih, List.map_cons, List.sum_cons, add_comm]

theorem O₀_eq (d : Dev nD) : O₀ d = ∑ j ∈ remoteJ, tallyAt (kcell (pr d j, j)) () (amt j) := by
  rw [← remoteL_toFinset, List.sum_toFinset _ remoteL_nodup]
  show Osum ((dues d).drop 0) = _
  rw [List.drop_zero, Osum_eq_sum, dues_eq, List.map_map]
  rfl

/-- What device `d` owes cell `j` of device `c`: the cell's amount when the cell is a remote one and `d` its payer, else nothing. -/
theorem owed_cell (d c : Dev nD) (j : Fin 25) :
    O₀ d (kcell (c, j)) () = if j ∈ remoteJ then (if d = pr c j then amt j else 0) else 0 := by
  rw [O₀_eq, Finset.sum_apply, Finsupp.finset_sum_apply,
    Finset.sum_congr rfl fun j' _ => tallyAt_apply (kcell (pr d j', j')) () (amt j') (kcell (c, j)) ()]
  have hterm : ∀ j' : Fin 25, (if kcell (c, j) = kcell (pr d j', j') ∧ () = () then amt j' else 0)
      = if j = j' then (if d = pr c j then amt j else 0) else 0 := by
    intro j'
    by_cases hj : j = j'
    · subst hj
      rw [if_pos rfl]
      by_cases hd : d = pr c j
      · subst hd; rw [if_pos rfl, if_pos ⟨by rw [pr_pr], rfl⟩]
      · rw [if_neg hd, if_neg fun h => hd (by rw [(kcell_eq_iff.mp h.1).1, pr_pr])]
    · rw [if_neg hj, if_neg fun h => hj (kcell_eq_iff.mp h.1).2]
  rw [Finset.sum_congr rfl fun j' _ => hterm j', Finset.sum_ite_eq remoteJ j fun _ => if d = pr c j then amt j else 0]

theorem launch_cell (c : Dev nD) (j : Fin 25) (hj : j ∈ remoteJ) :
    tallyOn (kcell (c, j)) (launchCredit (Pipeline.owing O₀) 0 (kcell (c, j))) = (tallyAt (kcell (c, j)) () (amt j) : CellTallies nD τ sig Unit) := by
  unfold tallyAt; refine congrArg _ (Finsupp.ext fun u => ?_); cases u
  rw [Pipeline.launchCredit_owing, Finsupp.single_eq_same,
    Finset.sum_congr rfl fun d _ => (owed_cell d c j).trans (if_pos hj),
    Finset.sum_ite_eq' Finset.univ (pr c j) fun _ => amt j, if_pos (Finset.mem_univ _)]

theorem bigSep_image_inj {I J : Type} [DecidableEq I] {f : J → I} (hf : Function.Injective f) (s : Finset J) (Φ : I → sProp 𝕄) :
    bigSep (s.image f) Φ = bigSep s fun j => Φ (f j) :=
  Finset.fold_image fun _ _ _ _ h => hf h

theorem creds_intro (c : Dev nD) : (Pipeline.launchCred O₀ c : sProp 𝕄) ⊢ creds c := by
  unfold Pipeline.launchCred creds
  refine (bigSep_subset (Finset.subset_univ (remoteJ.image csem))).trans ?_
  rw [bigSep_image_inj csem_injective]
  exact Entails.of_eq (bigSep_congr fun j hj => by rw [← launch_cell c j hj])

theorem Osum_pos {l : List (GSem nD τ sig × ℕ)} {g : GSem nD τ sig} {u : Unit} (h : 0 < Osum l g u) : ∃ x ∈ l, g = x.1 := by
  induction l with
  | nil =>
    rw [Osum_nil, Pi.zero_apply, Finsupp.zero_apply] at h
    exact absurd h (Nat.lt_irrefl 0)
  | cons x l ih =>
    rw [Osum_cons, Pi.add_apply, Finsupp.add_apply, tallyAt_apply] at h
    by_cases hx : g = x.1 ∧ u = ()
    · exact ⟨x, List.mem_cons_self, hx.1⟩
    · rw [if_neg hx, Nat.add_zero] at h
      obtain ⟨y, hy, hg⟩ := ih h
      exact ⟨y, List.mem_cons_of_mem _ hy, hg⟩

def lvJ (j : Fin 25) : ℕ := lv (kcell ((0 : Dev nD), j)) ()

/-- A device may wait on semaphore `s` when every cell it still owes lies strictly above `s`. -/
theorem mayWait_sem (c : Dev nD) (s : SemLoc sig) (i : ℕ) (h : ∀ j' ∈ remoteL.drop i, lv ((c : Thread nD τ), s) () < lvJ j') :
    (levAts L lv : sProp 𝕄) ⊢ MayWait (c : Thread nD τ) s () (Oat c i) :=
  have hd {g u} (hg : 0 < Oat c i g u) : ∃ j' ∈ remoteL.drop i, g = kcell (pr c j', j') := by
    obtain ⟨x, hx, rfl⟩ := Osum_pos hg
    rw [dues_eq, ← List.map_drop] at hx
    obtain ⟨j', hj', rfl⟩ := List.mem_map.mp hx
    exact ⟨j', hj', rfl⟩
  MayOwe.of_cut (L := L) (lev := lv) (lv ((c : Thread nD τ), s) ())
    (fun p hp => by rw [Finset.mem_singleton.mp hp, L_tc]; exact Finset.mem_singleton_self _)
    (fun g u hg => by obtain ⟨j', -, rfl⟩ := hd hg; rw [L_tc]; exact Finset.mem_singleton_self _)
    (fun p hp => by rw [Finset.mem_singleton.mp hp])
    (fun g u hg => by obtain ⟨j', hj', rfl⟩ := hd hg; exact h j' hj')

theorem mayWait_of_table (c : Dev nD) (j : Fin 25) (i : ℕ) (h : ∀ j' ∈ remoteL.drop i, lvJ j < lvJ j') :
    (levAts L lv : sProp 𝕄) ⊢ MayWait (c : Thread nD τ) (csem j) () (Oat c i) :=
  mayWait_sem c (csem j) i h

theorem mayWait_bar (c : Dev nD) : (levAts L lv : sProp 𝕄) ⊢ MayWait (c : Thread nD τ) (csem 0) () (Oat c 2) :=
  mayWait_of_table c 0 2 (by decide)

theorem mayWait_la (c : Dev nD) : (levAts L lv : sProp 𝕄) ⊢ MayWait (c : Thread nD τ) (csem 2) () (Oat c 2) :=
  mayWait_of_table c 2 2 (by decide)
theorem mayWait_lb (c : Dev nD) : (levAts L lv : sProp 𝕄) ⊢ MayWait (c : Thread nD τ) (csem 3) () (Oat c 6) :=
  mayWait_of_table c 3 6 (by decide)
theorem mayWait_lc (c : Dev nD) : (levAts L lv : sProp 𝕄) ⊢ MayWait (c : Thread nD τ) (csem 4) () (Oat c 8) :=
  mayWait_of_table c 4 8 (by decide)

theorem mayWait_pz (c : Dev nD) : (levAts L lv : sProp 𝕄) ⊢ MayWait (c : Thread nD τ) (csem 1) () (Oat c 8) :=
  mayWait_of_table c 1 8 (by decide)

theorem mayWait_afR (c : Dev nD) (k : Fin 4) :
    (levAts L lv : sProp 𝕄) ⊢ MayWait (c : Thread nD τ) (csem ⟨9 + k.val, by have := k.isLt; omega⟩) () (Oat c (8 + k.val)) :=
  mayWait_of_table c _ _ (by revert k; decide)

theorem Oat_12 (c : Dev nD) : Oat c 12 = 0 := rfl

theorem mayWait_stage (c : Dev nD) (O : CellTallies nD τ sig Unit) (hO : O = O₀ c ∨ O = 0) :
    (levAts L lv : sProp 𝕄) ⊢ MayWait (c : Thread nD τ) (.dma (dS 0)) () O := by
  rcases hO with rfl | rfl
  · exact mayWait_sem c _ 0 (by decide : ∀ j' ∈ remoteL, 0 < lvJ j')
  · rw [MayWait_zero]; iintro -; iempintro

end Cert.Kernel.AG

end
-- ==== Proof.W.Pieces.lean ====
import proofs.«900690_g7700000000000691_dist_ag_v7x_xyz2x4x4_x_m512_n512_bf16_1_alg».proof.Proof.W.Sched

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

local notation "𝕄" => MT nD τ sig Unit (Elt F) ℕ UU ℕ

-- Row `o` on, `r` rows, all columns: an index lies in the band exactly when its row does.
theorem mem_rows {R C r o : ℕ} {off : Fin 2 → ℕ} {inb}
    (h : off = ![o, 0]) (i : (⟨2, ![R, C]⟩ : Shape).Idx) :
    i ∈ (Rect.unit (s := ⟨2, ![R, C]⟩) off ![r, C] inb).set ↔ o ≤ (i 0).val ∧ (i 0).val < o + r := by
  subst h
  rw [Rect.mem_set_unit, Fin.forall_fin_two]
  have h1 : (i 1).val < C := (i 1).isLt
  exact ⟨fun h => h.1, fun h => ⟨h, Nat.zero_le _, by show (i 1).val < 0 + C; omega⟩⟩

-- A piece of a buffer depends on the contents only on the piece.
theorem pts_congr {sp : Space} {s : Shape} {e : EltTy} (M : Memref sig .tc sp s e) (c : Dev nD)
    (f g : Buf (Elt F) (M.view.loc (c : Thread nD τ))) (h : ∀ i ∈ M.view.set, f i = g i) :
    pts M c f ⊢ pts M c g :=
  Entails.of_eq (Region.is_congr h)

-- Slices of one memref along equal rectangles hold the same piece.
theorem pts_slice_congr {sp : Space} {s : Shape} {e : EltTy} (M : Memref sig .tc sp s e) {R R' : Rect s} (h : R = R')
    (hR : ∀ a, R.stride a = 1) (hR' : ∀ a, R'.stride a = 1) (c : Dev nD) (f : Buf (Elt F) (M.view.loc (c : Thread nD τ))) :
    (pts (M.slice R hR) c f : sProp 𝕄) ⊢ pts (M.slice R' hR') c f := by
  subst h; exact .rfl

variable (c : Dev nD)

theorem mem_slA_iff (k : Fin 4) (i : S1024x512.Idx) :
    i ∈ (slA c k).view.set ↔
      (512 * (c.val / 16) + 32 * k.val + 128) - 128 * ((c.val % 4) % 2) ≤ (i 0).val
        ∧ (i 0).val < (512 * (c.val / 16) + 32 * k.val + 128) - 128 * ((c.val % 4) % 2) + 32 :=
  (Finset.ext_iff.mp (View.set_slice_whole cc0_stg0_0 _) i).trans (mem_rows (Gen.k0_off5_eq c k) i)

theorem mem_slD_iff (k : Fin 2) (i : S1024x512.Idx) :
    i ∈ (slD c k).view.set ↔
      512 * (c.val / 16) + 128 * k.val + 256 ≤ (i 0).val
        ∧ (i 0).val < 512 * (c.val / 16) + 128 * k.val + 256 + 128 :=
  (Finset.ext_iff.mp (View.set_slice_whole cc0_stg0_0 _) i).trans (mem_rows (Gen.k0_off7_eq c k) i)

theorem mem_slK_iff (i : S1024x512.Idx) :
    i ∈ (slK c).view.set ↔
      512 * (c.val / 16) + 128 * ((c.val % 4) % 2) ≤ (i 0).val
        ∧ (i 0).val < 512 * (c.val / 16) + 128 * ((c.val % 4) % 2) + 128 :=
  (Finset.ext_iff.mp (View.set_slice_whole cc0_stg0_0 _) i).trans (mem_rows (Gen.k0_off9_eq c) i)

theorem mem_slF_iff (k : Fin 4) (i : S1024x512.Idx) :
    i ∈ (slF c k).view.set ↔
      (32 * k.val + 640) - (512 * (c.val / 16) + 128 * ((c.val % 4) % 2)) ≤ (i 0).val
        ∧ (i 0).val < (32 * k.val + 640) - (512 * (c.val / 16) + 128 * ((c.val % 4) % 2)) + 32 :=
  (Finset.ext_iff.mp (View.set_slice_whole cc0_stg0_0 _) i).trans (mem_rows (Gen.k0_off10_eq c k) i)

theorem mem_xvA_iff (i : S512x512.Idx) :
    i ∈ (xvA c).view.set ↔ 128 - 128 * ((c.val % 4) % 2) ≤ (i 0).val ∧ (i 0).val < 128 - 128 * ((c.val % 4) % 2) + 128 :=
  (Finset.ext_iff.mp (View.set_slice_whole cc0_scratch0 _) i).trans (mem_rows (Gen.k0_off1_eq c) i)

theorem mem_xvB_iff (i : S512x512.Idx) : i ∈ xvB.view.set ↔ 256 ≤ (i 0).val ∧ (i 0).val < 256 + 256 :=
  (Finset.ext_iff.mp (View.set_slice_whole cc0_scratch0 _) i).trans (mem_rows rfl i)

theorem mem_xvC_iff (i : S512x512.Idx) :
    i ∈ (xvC c).view.set ↔ 128 * ((c.val % 4) % 2) ≤ (i 0).val ∧ (i 0).val < 128 * ((c.val % 4) % 2) + 128 :=
  (Finset.ext_iff.mp (View.set_slice_whole cc0_scratch0 _) i).trans (mem_rows (Gen.k0_off2_eq c) i)

theorem mem_hbA_iff (i : S512x512.Idx) :
    i ∈ (hbA c).view.set ↔ 128 - 128 * ((c.val % 4) % 2) ≤ (i 0).val ∧ (i 0).val < 128 - 128 * ((c.val % 4) % 2) + 128 :=
  (Finset.ext_iff.mp (View.set_slice_whole main_arg0 _) i).trans (mem_rows (Gen.k0_off1_eq c) i)

theorem mem_hbB_iff (i : S512x512.Idx) : i ∈ hbB.view.set ↔ 256 ≤ (i 0).val ∧ (i 0).val < 256 + 256 :=
  (Finset.ext_iff.mp (View.set_slice_whole main_arg0 _) i).trans (mem_rows rfl i)

theorem mem_hbC_iff (i : S512x512.Idx) :
    i ∈ (hbC c).view.set ↔ 128 * ((c.val % 4) % 2) ≤ (i 0).val ∧ (i 0).val < 128 * ((c.val % 4) % 2) + 128 :=
  (Finset.ext_iff.mp (View.set_slice_whole main_arg0 _) i).trans (mem_rows (Gen.k0_off2_eq c) i)

theorem pts_slF_slA (k : Fin 4) (f : S1024x512.Idx → Elt F .bf16) :
    (pts (slF c k) c f : sProp 𝕄) ⊢ pts (slA (px c) k) c f :=
  pts_slice_congr oM (Rect.unit_congr (off5_px c k).symm _ _) _ _ c f

theorem pts_slA_slF (k : Fin 4) (f : S1024x512.Idx → Elt F .bf16) :
    (pts (slA (px c) k) c f : sProp 𝕄) ⊢ pts (slF c k) c f :=
  pts_slice_congr oM (Rect.unit_congr (off5_px c k) _ _) _ _ c f

theorem px_half : ∀ c : Dev nD, (px c).val / 16 = 1 - c.val / 16 := by decide
theorem px_par : ∀ c : Dev nD, ((px c).val % 4) % 2 = (c.val % 4) % 2 := by decide
theorem pz_half : ∀ c : Dev nD, (pz c).val / 16 = c.val / 16 := by decide
theorem pz_par : ∀ c : Dev nD, ((pz c).val % 4) % 2 = 1 - (c.val % 4) % 2 := by decide

-- A set cut out by `P` put before a tiled set cut out by an incompatible `Q`: the union is cut out by `P ∨ Q` and is tiled.
theorem tile {ℓ : Loc nD τ sig} {A B : Finset (Idx ℓ)} {P Q : Idx ℓ → Prop} {X : sProp 𝕄} {f : Buf (Elt F) ℓ}
    (hB : (∀ i, i ∈ B ↔ Q i) ∧ ((ℓ ↦[B]{fullShare} f : sProp 𝕄) ⊣⊢ X)) (hA : ∀ i, i ∈ A ↔ P i)
    (hd : ∀ i, P i → Q i → False) :
    (∀ i, i ∈ A ∪ B ↔ P i ∨ Q i) ∧ ((ℓ ↦[A ∪ B]{fullShare} f : sProp 𝕄) ⊣⊢ iprop((ℓ ↦[A]{fullShare} f) ∗ X)) :=
  ⟨fun i => Finset.mem_union.trans (or_congr (hA i) (hB.1 i)),
    (Region.is_union (Finset.disjoint_left.mpr fun i hi hj => hd i ((hA i).mp hi) ((hB.1 i).mp hj))).trans
      (sep_congr_right hB.2)⟩

theorem tile_one (ℓ : Loc nD τ sig) (f : Buf (Elt F) ℓ) {A : Finset (Idx ℓ)} {P : Idx ℓ → Prop} (hA : ∀ i, i ∈ A ↔ P i) :
    (∀ i, i ∈ A ↔ P i) ∧ ((ℓ ↦[A]{fullShare} f : sProp 𝕄) ⊣⊢ (ℓ ↦[A]{fullShare} f)) := ⟨hA, .rfl⟩

-- A tiled set that every index belongs to is the whole buffer.
theorem tile_whole {ℓ : Loc nD τ sig} {A : Finset (Idx ℓ)} {P : Idx ℓ → Prop} {X : sProp 𝕄} {f : Buf (Elt F) ℓ}
    (h : (∀ i, i ∈ A ↔ P i) ∧ ((ℓ ↦[A]{fullShare} f : sProp 𝕄) ⊣⊢ X)) (hc : ∀ i, P i) :
    (ℓ ↦{fullShare} f : sProp 𝕄) ⊣⊢ X :=
  (BiEntails.of_eq (congrArg (fun S => (ℓ ↦[S]{fullShare} f : sProp 𝕄))
    (Finset.ext fun i => ⟨fun _ => (h.1 i).mpr (hc i), fun _ => Finset.mem_univ i⟩))).trans h.2

section
variable (f : Buf (Elt F) ((c : Thread nD τ).loc cc0_stg0_0))

def outPieces : sProp 𝕄 :=
  iprop(pts (slA c 0) c f ∗ pts (slA c 1) c f ∗ pts (slA c 2) c f ∗ pts (slA c 3) c f
    ∗ pts (slD c 0) c f ∗ pts (slD c 1) c f ∗ pts (slK c) c f
    ∗ pts (slA (px c) 0) c f ∗ pts (slA (px c) 1) c f ∗ pts (slA (px c) 2) c f ∗ pts (slA (px c) 3) c f
    ∗ pts (slD (px c) 0) c f ∗ pts (slD (px c) 1) c f
    ∗ pts (slF (pz c) 0) c f ∗ pts (slF (pz c) 1) c f ∗ pts (slF (pz c) 2) c f ∗ pts (slF (pz c) 3) c f)

-- The seventeen bands cover the 1024 rows, and each misses all the later ones.
theorem out_iff :
    (((c : Thread nD τ).loc cc0_stg0_0) ↦{fullShare} f : sProp 𝕄) ⊣⊢ outPieces c f := by
  have hc : c.val < 32 := c.isLt
  have hA := mem_slA_iff (px c); have hD := mem_slD_iff (px c); have hF := mem_slF_iff (pz c)
  rw [px_half, px_par] at hA; rw [px_half] at hD; rw [pz_half, pz_par] at hF
  have t := tile_one _ f (hF 3)
  have t := tile t (hF 2) fun i p q => by omega
  have t := tile t (hF 1) fun i p q => by omega
  have t := tile t (hF 0) fun i p q => by omega
  have t := tile t (hD 1) fun i p q => by omega
  have t := tile t (hD 0) fun i p q => by omega
  have t := tile t (hA 3) fun i p q => by omega
  have t := tile t (hA 2) fun i p q => by omega
  have t := tile t (hA 1) fun i p q => by omega
  have t := tile t (hA 0) fun i p q => by omega
  have t := tile t (mem_slK_iff c) fun i p q => by omega
  have t := tile t (mem_slD_iff c 1) fun i p q => by omega
  have t := tile t (mem_slD_iff c 0) fun i p q => by omega
  have t := tile t (mem_slA_iff c 3) fun i p q => by omega
  have t := tile t (mem_slA_iff c 2) fun i p q => by omega
  have t := tile t (mem_slA_iff c 1) fun i p q => by omega
  have t := tile t (mem_slA_iff c 0) fun i p q => by omega
  exact tile_whole t fun i => by have h0 : (i 0).val < 1024 := (i 0).isLt; omega

theorem out_split :
    (((c : Thread nD τ).loc cc0_stg0_0) ↦{fullShare} f : sProp 𝕄) ⊢ outPieces c f := (out_iff c f).mp

theorem out_join :
    outPieces c f ⊢ (((c : Thread nD τ).loc cc0_stg0_0) ↦{fullShare} f : sProp 𝕄) := (out_iff c f).mpr

end

section
variable (f : Buf (Elt F) ((c : Thread nD τ).loc cc0_scratch0))

-- The forwarded quarter, the lower half and the kept quarter tile the 512 rows of a block.
theorem xv_iff :
    ((c : Thread nD τ).loc cc0_scratch0 ↦{fullShare} f : sProp 𝕄)
      ⊣⊢ iprop(pts (xvA c) c f ∗ pts xvB c f ∗ pts (xvC c) c f) := by
  have t := tile (tile_one _ f (mem_xvC_iff c)) mem_xvB_iff fun i p q => by omega
  have t := tile t (mem_xvA_iff c) fun i p q => by omega
  exact tile_whole t fun i => by have h0 : (i 0).val < 512 := (i 0).isLt; omega

theorem xv_split :
    ((c : Thread nD τ).loc cc0_scratch0 ↦{fullShare} f : sProp 𝕄)
      ⊢ iprop(pts (xvA c) c f ∗ pts xvB c f ∗ pts (xvC c) c f) := (xv_iff c f).mp

theorem xv_join :
    iprop(pts (xvA c) c f ∗ pts xvB c f ∗ pts (xvC c) c f)
      ⊢ ((c : Thread nD τ).loc cc0_scratch0 ↦{fullShare} f : sProp 𝕄) := (xv_iff c f).mpr

end

section
variable (f : Buf (Elt F) ((c : Thread nD τ).loc main_arg0))

theorem hbm_iff :
    ((c : Thread nD τ).loc main_arg0 ↦{fullShare} f : sProp 𝕄)
      ⊣⊢ iprop(pts (hbA c) c f ∗ pts hbB c f ∗ pts (hbC c) c f) := by
  have t := tile (tile_one _ f (mem_hbC_iff c)) mem_hbB_iff fun i p q => by omega
  have t := tile t (mem_hbA_iff c) fun i p q => by omega
  exact tile_whole t fun i => by have h0 : (i 0).val < 512 := (i 0).isLt; omega

theorem hbm_split :
    ((c : Thread nD τ).loc main_arg0 ↦{fullShare} f : sProp 𝕄)
      ⊢ iprop(pts (hbA c) c f ∗ pts hbB c f ∗ pts (hbC c) c f) := (hbm_iff c f).mp

theorem hbm_join :
    iprop(pts (hbA c) c f ∗ pts hbB c f ∗ pts (hbC c) c f)
      ⊢ ((c : Thread nD τ).loc main_arg0 ↦{fullShare} f : sProp 𝕄) := (hbm_iff c f).mpr

end

end Cert.Kernel.AG

end
-- ==== Proof.W.Vals.lean ====
import proofs.«900690_g7700000000000691_dist_ag_v7x_xyz2x4x4_x_m512_n512_bf16_1_alg».proof.Proof.W.Pieces
import Idealize.ShloMosaic.Lib.Pipeline.Value

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws

variable {F : FTy → Type} [FloatOps F]

variable (m : (ℓ : Loc nD τ sig) → Buf (Elt F) ℓ) (c : Dev nD)

local notation "𝕄" => MT nD τ sig Unit (Elt F) ℕ UU ℕ

-- Writing through a view what the view reads off other contents leaves those contents under the view.
private theorem vwrite_read {sp : Space} {s : Shape} {e : EltTy} (v : View sig .tc sp s e)
    (f g : v.ty.Contents (Elt F)) : ∀ i ∈ v.set, v.write (Elt F) f (v.read (Elt F) g) Finset.univ i = g i := by
  intro i hi
  obtain ⟨y, rfl⟩ := View.exists_emb_of_mem_set v hi
  rw [View.write_emb_of_mem _ _ (Finset.mem_univ y), View.read_apply, cast_cast, cast_eq]

-- Entry `y` of a unit-stride band sits at the band's offset plus `y`, on each axis.
private theorem band_emb {d sz off : Fin 2 → ℕ} {inb}
    (y : (Rect.unit (s := ⟨2, d⟩) off sz inb).shape.Idx) (a : Fin 2) :
    (((Rect.unit (s := ⟨2, d⟩) off sz inb).emb y a : Fin _) : ℕ) = off a + (y a).val := by
  rw [Rect.emb_apply]; show off a + 1 * (y a).val = _; omega

-- Rows of the device's own half outside the x-partner's kept band come from the device itself on both devices.
private theorem outF_px (i : S1024x512.Idx) (h : (i 0).val / 512 = c.val / 16)
    (hb : ¬ (128 * ((c.val % 4) % 2) ≤ (i 0).val % 512 ∧ (i 0).val % 512 < 128 * ((c.val % 4) % 2) + 128)) :
    outF m c i = outF m (px c) i := by
  have hc : c.val < 32 := c.isLt
  unfold outF rowSrc
  rw [px_half, px_par, if_pos h, if_neg (show ¬ (i 0).val / 512 = 1 - c.val / 16 by omega), if_neg hb, px_px]

-- The forwarded rows come from the x-partner; for the z-partner they are its kept band, from its own z-partner's x-partner.
private theorem outF_slF (k : Fin 4) : ∀ i ∈ (slF c k).view.set, outF m c i = outF m (pz c) i := by
  intro i hi
  have hr := (mem_slF_iff c k i).mp hi
  have hc : c.val < 32 := c.isLt
  have hk : k.val < 4 := k.isLt
  have hi0 : (i 0).val < 1024 := (i 0).isLt
  have h1 : ¬ (i 0).val / 512 = c.val / 16 := by omega
  unfold outF rowSrc
  rw [pz_half, pz_par, pz_pz, if_neg h1, if_neg h1,
    if_neg (show ¬ (128 * ((c.val % 4) % 2) ≤ (i 0).val % 512 ∧ (i 0).val % 512 < 128 * ((c.val % 4) % 2) + 128) by omega),
    if_pos (show 128 * (1 - (c.val % 4) % 2) ≤ (i 0).val % 512 ∧ (i 0).val % 512 < 128 * (1 - (c.val % 4) % 2) + 128 by omega)]

private theorem pay_rcvA (k : Fin 4) : pay m c ⟨9 + k.val, by omega⟩ = pts (slA (px c) k) c (outF m c) := by
  fin_cases k <;> rfl
private theorem pay_rcvD (k : Fin 2) : pay m c ⟨15 + k.val, by omega⟩ = pts (slD (px c) k) c (outF m c) := by
  fin_cases k <;> rfl
private theorem pay_rcvF (k : Fin 4) : pay m c ⟨21 + k.val, by omega⟩ = pts (slF (pz c) k) c (outF m c) := by
  fin_cases k <;> rfl

theorem srcA_pay (k : Fin 4) :
    (pts (slA c k) c (outF m c) : sProp 𝕄) ⊢ (sched m).payload (kcell (c, ⟨5 + k.val, by omega⟩)) 0 () := by
  rw [payload_cell]; fin_cases k <;> exact .rfl

theorem srcD_pay (k : Fin 2) :
    (pts (slD c k) c (outF m c) : sProp 𝕄) ⊢ (sched m).payload (kcell (c, ⟨13 + k.val, by omega⟩)) 0 () := by
  rw [payload_cell]; fin_cases k <;> exact .rfl

theorem srcF_pay (k : Fin 4) :
    (pts (slF c k) c (outF m c) : sProp 𝕄) ⊢ (sched m).payload (kcell (c, ⟨17 + k.val, by omega⟩)) 0 () := by
  rw [payload_cell]; fin_cases k <;> exact .rfl

-- A piece of the partner's buffer overwritten with the device's own piece holds the partner's final contents, where both results agree.
private theorem send_pay (p : Dev nD) (R : Rect S1024x512) (hR : ∀ a, R.stride a = 1) (j : Fin 25)
    (fd : Buf (Elt F) ((oM.slice R hR).view.loc (p : Thread nD τ)))
    (hj : pay m p j = pts (oM.slice R hR) p (outF m p)) (hv : ∀ i ∈ (oM.slice R hR).view.set, outF m c i = outF m p i) :
    ((oM.slice R hR).view.loc (p : Thread nD τ) ↦[(oM.slice R hR).view.set]{fullShare}
        ((oM.slice R hR).view.write (Elt F) fd ((oM.slice R hR).view.read (Elt F) (outF m c)) Finset.univ) : sProp 𝕄)
      ⊢ (sched m).payload (kcell (p, j)) 0 () := by
  rw [payload_cell, hj]
  exact pts_congr (oM.slice R hR) p _ _ fun i hi => (vwrite_read _ fd (outF m c) i hi).trans (hv i hi)

theorem sendA_pay (k : Fin 4) (fd : Buf (Elt F) ((slA c k).view.loc ((px c : Dev nD) : Thread nD τ))) :
    ((slA c k).view.loc ((px c : Dev nD) : Thread nD τ) ↦[(slA c k).view.set]{fullShare}
        ((slA c k).view.write (Elt F) fd ((slA c k).view.read (Elt F) (outF m c)) Finset.univ) : sProp 𝕄)
      ⊢ (sched m).payload (kcell (px c, ⟨9 + k.val, by omega⟩)) 0 () :=
  send_pay m c (px c) _ _ _ fd (by rw [pay_rcvA, px_px]) fun i hi => by
    have hr := (mem_slA_iff c k i).mp hi; have hk := k.isLt
    exact outF_px m c i (by omega) (by omega)

theorem sendD_pay (k : Fin 2) (fd : Buf (Elt F) ((slD c k).view.loc ((px c : Dev nD) : Thread nD τ))) :
    ((slD c k).view.loc ((px c : Dev nD) : Thread nD τ) ↦[(slD c k).view.set]{fullShare}
        ((slD c k).view.write (Elt F) fd ((slD c k).view.read (Elt F) (outF m c)) Finset.univ) : sProp 𝕄)
      ⊢ (sched m).payload (kcell (px c, ⟨15 + k.val, by omega⟩)) 0 () :=
  send_pay m c (px c) _ _ _ fd (by rw [pay_rcvD, px_px]) fun i hi => by
    have hr := (mem_slD_iff c k i).mp hi; have hk := k.isLt
    exact outF_px m c i (by omega) (by omega)

theorem sendF_pay (k : Fin 4) (fd : Buf (Elt F) ((slF c k).view.loc ((pz c : Dev nD) : Thread nD τ))) :
    ((slF c k).view.loc ((pz c : Dev nD) : Thread nD τ) ↦[(slF c k).view.set]{fullShare}
        ((slF c k).view.write (Elt F) fd ((slF c k).view.read (Elt F) (outF m c)) Finset.univ) : sProp 𝕄)
      ⊢ (sched m).payload (kcell (pz c, ⟨21 + k.val, by omega⟩)) 0 () :=
  send_pay m c (pz c) _ _ _ fd (by rw [pay_rcvF, pz_pz]) (outF_slF m c k)

-- Two pieces that are the same band of rows of two buffers of one type: writing one with what the other reads gives the contents read.
private theorem copy_val (R : Rect S512x512) (hR : ∀ a, R.stride a = 1)
    (fd : Buf (Elt F) ((xM.slice R hR).view.loc (c : Thread nD τ))) (g : S512x512.Idx → Elt F .f32) :
    ∀ i ∈ (xM.slice R hR).view.set,
      (xM.slice R hR).view.write (Elt F) fd ((hM.slice R hR).view.read (Elt F) g) Finset.univ i = g i := by
  intro i hi
  obtain ⟨y, rfl⟩ := View.exists_emb_of_mem_set _ hi
  rw [View.write_emb_of_mem _ _ (Finset.mem_univ y), View.read_apply, cast_cast, cast_eq]
  rfl

theorem copyA_pay (fd : Buf (Elt F) ((xvA c).view.loc (c : Thread nD τ))) :
    iprop(((xvA c).view.loc (c : Thread nD τ) ↦[(xvA c).view.set]{fullShare}
          ((xvA c).view.write (Elt F) fd ((hbA c).view.read (Elt F) (xin m c)) Finset.univ))
        ∗ ((hbA c).view.loc (c : Thread nD τ) ↦[(hbA c).view.set]{fullShare} xin m c))
      ⊢ ((sched m).payload (kcell (c, 2)) 0 () : sProp 𝕄) := by
  rw [payload_cell]
  exact sep_mono_left (pts_congr (xvA c) c _ _ (copy_val c _ _ fd (xin m c)))

theorem copyB_pay (fd : Buf (Elt F) (xvB.view.loc (c : Thread nD τ))) :
    iprop((xvB.view.loc (c : Thread nD τ) ↦[xvB.view.set]{fullShare}
          (xvB.view.write (Elt F) fd (hbB.view.read (Elt F) (xin m c)) Finset.univ))
        ∗ (hbB.view.loc (c : Thread nD τ) ↦[hbB.view.set]{fullShare} xin m c))
      ⊢ ((sched m).payload (kcell (c, 3)) 0 () : sProp 𝕄) := by
  rw [payload_cell]
  exact sep_mono_left (pts_congr xvB c _ _ (copy_val c _ _ fd (xin m c)))

theorem copyC_pay (fd : Buf (Elt F) ((xvC c).view.loc (c : Thread nD τ))) :
    iprop(((xvC c).view.loc (c : Thread nD τ) ↦[(xvC c).view.set]{fullShare}
          ((xvC c).view.write (Elt F) fd ((hbC c).view.read (Elt F) (xin m c)) Finset.univ))
        ∗ ((hbC c).view.loc (c : Thread nD τ) ↦[(hbC c).view.set]{fullShare} xin m c))
      ⊢ ((sched m).payload (kcell (c, 4)) 0 () : sProp 𝕄) := by
  rw [payload_cell]
  exact sep_mono_left (pts_congr (xvC c) c _ _ (copy_val c _ _ fd (xin m c)))

-- Rows `o₄ + t` of the result come from the device itself and are rows `o₃ + t` of its block.
private theorem store_val {sz off4 off5 off3 : Fin 2 → ℕ} {inb4}
    {inb5} {inb3} {o4 o3 : ℕ} (n : ℕ)
    (h45 : off4 = off5) (h4 : off4 = ![o4, 0]) (h3 : off3 = ![o3, 0]) (hn : sz 0 = n)
    (hsrc : ∀ t < n, (o4 + t) / 512 = c.val / 16) (hloc : ∀ t < n, (o4 + t) % 512 = o3 + t)
    (f : Buf (Elt F) ((oM.access (Rect.unit (s := S1024x512) off4 sz inb4)).loc (c : Thread nD τ))) :
    ∀ i ∈ (oM.slice (Rect.unit (s := S1024x512) off5 sz inb5) fun _ => rfl).view.set,
      (oM.access (Rect.unit (s := S1024x512) off4 sz inb4)).write (Elt F) f
        (truncf .bf16 (xM.view.readAt (Elt F) (Rect.unit (s := S512x512) off3 sz inb3).toLoadRect (xin m c))
          bitsLt_bf16_f32) Finset.univ i = outF m c i := by
  subst h45 hn
  intro i hi
  obtain ⟨y, rfl⟩ := View.exists_emb_of_mem_set (oM.access (Rect.unit (s := S1024x512) off4 sz inb4)) hi
  rw [View.write_emb_of_mem _ _ (Finset.mem_univ y)]
  have hy : (y 0).val < sz 0 := (y 0).isLt
  have e4 := band_emb (d := ![1024, 512]) (inb := inb4) y
  have e3 := band_emb (d := ![512, 512]) (inb := inb3) y
  subst h4 h3
  have hs : rowSrc c ((oM.access (Rect.unit (s := S1024x512) ![o4, 0] sz inb4)).emb y) = c :=
    if_pos ((congrArg (· / 512) (e4 0)).trans (hsrc _ hy))
  have hl : loc512 ((oM.access (Rect.unit (s := S1024x512) ![o4, 0] sz inb4)).emb y)
      = (Rect.unit (s := S512x512) ![o3, 0] sz inb3).emb y := by
    funext a; apply Fin.ext
    match a with
    | ⟨0, _⟩ => exact ((congrArg (· % 512) (e4 0)).trans (hloc _ hy)).trans (e3 0).symm
    | ⟨1, _⟩ => exact (e4 1).trans (e3 1).symm
  unfold outF
  rw [hs, hl]
  rfl

-- A band of rows inside another band of one buffer: a load of the one reads inside the piece of the other.
private theorem load_sub {off sz off' sz' : Fin 2 → ℕ} {inb}
    {inb'} {o o' : ℕ} (h : off = ![o, 0]) (h' : off' = ![o', 0])
    (hlo : o' ≤ o) (hhi : o + sz 0 ≤ o' + sz' 0) (hc : sz 1 ≤ sz' 1) :
    xM.view.setOn (Rect.unit (s := S512x512) off sz inb).toLoadRect.set
      ⊆ (xM.slice (Rect.unit (s := S512x512) off' sz' inb') fun _ => rfl).view.set := by
  subst h h'
  refine Finset.Subset.trans (Finset.map_subset_map.mpr fun i hi => ?_) (View.set_slice xM.view _).symm.subset
  rw [Rect.mem_set_unit, Fin.forall_fin_two] at hi ⊢
  exact ⟨⟨le_trans hlo hi.1.1, lt_of_lt_of_le hi.1.2 hhi⟩, Nat.zero_le _, lt_of_lt_of_le hi.2.2 (Nat.add_le_add_left hc 0)⟩

-- An access at offsets equal to a piece's goes through the piece's elements, as a store and as a load.
private theorem acc_sub {sz off off' : Fin 2 → ℕ} {inb}
    {inb'} (h : off = off') :
    (oM.access (Rect.unit (s := S1024x512) off sz inb)).setOn Finset.univ
        ⊆ (oM.slice (Rect.unit (s := S1024x512) off' sz inb') fun _ => rfl).view.set
      ∧ oM.view.setOn (Rect.unit (s := S1024x512) off sz inb).toLoadRect.set
        ⊆ (oM.slice (Rect.unit (s := S1024x512) off' sz inb') fun _ => rfl).view.set := by
  subst h; exact ⟨Finset.Subset.refl _, (View.set_slice _ _).symm.subset⟩

theorem accA_store_sub (k : Fin 4) :
    (oM.access (Rect.unit (s := S1024x512) (k0_off4 c (w32 k)) S32x512.size (k0_off4_inb c k))).setOn Finset.univ
      ⊆ (slA c k).view.set := (acc_sub (off4_eq_off5 c k)).1
theorem accA_load_sub (k : Fin 4) :
    oM.view.setOn (Rect.unit (s := S1024x512) (k0_off4 c (w32 k)) S32x512.size (k0_off4_inb c k)).toLoadRect.set
      ⊆ (slA c k).view.set := (acc_sub (off4_eq_off5 c k)).2
theorem accD_store_sub (k : Fin 2) :
    (oM.access (Rect.unit (s := S1024x512) (k0_off6 c (w128 k)) S128x512.size (k0_off6_inb c k))).setOn Finset.univ
      ⊆ (slD c k).view.set := (acc_sub (off6_eq_off7 c k)).1
theorem accD_load_sub (k : Fin 2) :
    oM.view.setOn (Rect.unit (s := S1024x512) (k0_off6 c (w128 k)) S128x512.size (k0_off6_inb c k)).toLoadRect.set
      ⊆ (slD c k).view.set := (acc_sub (off6_eq_off7 c k)).2
theorem accK_store_sub :
    (oM.access (Rect.unit (s := S1024x512) (k0_off9 c) S128x512.size (k0_off9_inb c))).setOn Finset.univ
      ⊆ (slK c).view.set := (acc_sub rfl).1
theorem accK_load_sub :
    oM.view.setOn (Rect.unit (s := S1024x512) (k0_off9 c) S128x512.size (k0_off9_inb c)).toLoadRect.set
      ⊆ (slK c).view.set := (acc_sub rfl).2

theorem loadA_sub (k : Fin 4) :
    xM.view.setOn (Rect.unit (s := S512x512) (k0_off3 c (w32 k)) S32x512.size (k0_off3_inb c k)).toLoadRect.set
      ⊆ (xvA c).view.set := by
  have hc : c.val < 32 := c.isLt
  have hk : k.val < 4 := k.isLt
  exact load_sub (Gen.k0_off3_eq c k) (Gen.k0_off1_eq c) (by omega)
    (show (32 * k.val + 128) - 128 * ((c.val % 4) % 2) + 32 ≤ 128 - 128 * ((c.val % 4) % 2) + 128 by omega) le_rfl

theorem loadD0_sub :
    xM.view.setOn (Rect.unit (s := S512x512) ![256, 0] S128x512.size inb_S512x512_S128x512_256_0).toLoadRect.set
      ⊆ xvB.view.set :=
  load_sub rfl rfl le_rfl (show 256 + 128 ≤ 256 + 256 by omega) le_rfl
theorem loadD1_sub :
    xM.view.setOn (Rect.unit (s := S512x512) ![384, 0] S128x512.size inb_S512x512_S128x512_384_0).toLoadRect.set
      ⊆ xvB.view.set :=
  load_sub rfl rfl (show 256 ≤ 384 by omega) (show 384 + 128 ≤ 256 + 256 by omega) le_rfl

theorem loadK_sub :
    xM.view.setOn (Rect.unit (s := S512x512) (k0_off8 c) S128x512.size (k0_off8_inb c)).toLoadRect.set
      ⊆ (xvC c).view.set :=
  load_sub (Gen.k0_off8_eq c) (Gen.k0_off2_eq c) le_rfl le_rfl le_rfl

theorem storeA_val (k : Fin 4)
    (f : Buf (Elt F) ((oM.access (Rect.unit (s := S1024x512) (k0_off4 c (w32 k)) S32x512.size (k0_off4_inb c k))).loc
      (c : Thread nD τ))) :
    ∀ i ∈ (slA c k).view.set,
      (oM.access (Rect.unit (s := S1024x512) (k0_off4 c (w32 k)) S32x512.size (k0_off4_inb c k))).write (Elt F) f
        (truncf .bf16 (xM.view.readAt (Elt F)
          (Rect.unit (s := S512x512) (k0_off3 c (w32 k)) S32x512.size (k0_off3_inb c k)).toLoadRect (xin m c))
          bitsLt_bf16_f32) Finset.univ i = outF m c i := by
  have hk : k.val < 4 := k.isLt
  exact store_val m c 32 (off4_eq_off5 c k) (Gen.k0_off4_eq c k) (Gen.k0_off3_eq c k) rfl
    (fun t ht => by omega) (fun t ht => by omega) f

theorem storeA_pts (k : Fin 4)
    (f : Buf (Elt F) ((oM.access (Rect.unit (s := S1024x512) (k0_off4 c (w32 k)) S32x512.size (k0_off4_inb c k))).loc
      (c : Thread nD τ))) :
    ((oM.access (Rect.unit (s := S1024x512) (k0_off4 c (w32 k)) S32x512.size (k0_off4_inb c k))).loc (c : Thread nD τ)
        ↦[(slA c k).view.set]{fullShare}
      ((oM.access (Rect.unit (s := S1024x512) (k0_off4 c (w32 k)) S32x512.size (k0_off4_inb c k))).write (Elt F) f
        (truncf .bf16 (xM.view.readAt (Elt F)
          (Rect.unit (s := S512x512) (k0_off3 c (w32 k)) S32x512.size (k0_off3_inb c k)).toLoadRect (xin m c))
          bitsLt_bf16_f32) Finset.univ) : sProp 𝕄)
      ⊢ pts (slA c k) c (outF m c) :=
  Entails.of_eq (Region.is_congr (storeA_val m c k f))

theorem storeD0_pts
    (f : Buf (Elt F) ((oM.access (Rect.unit (s := S1024x512) (k0_off6 c (w128 0)) S128x512.size (k0_off6_inb c 0))).loc
      (c : Thread nD τ))) :
    ((oM.access (Rect.unit (s := S1024x512) (k0_off6 c (w128 0)) S128x512.size (k0_off6_inb c 0))).loc (c : Thread nD τ)
        ↦[(slD c 0).view.set]{fullShare}
      ((oM.access (Rect.unit (s := S1024x512) (k0_off6 c (w128 0)) S128x512.size (k0_off6_inb c 0))).write (Elt F) f
        (truncf .bf16 (xM.view.readAt (Elt F)
          (Rect.unit (s := S512x512) ![256, 0] S128x512.size inb_S512x512_S128x512_256_0).toLoadRect (xin m c))
          bitsLt_bf16_f32) Finset.univ) : sProp 𝕄)
      ⊢ pts (slD c 0) c (outF m c) :=
  Entails.of_eq (Region.is_congr (store_val m c 128 (off6_eq_off7 c 0) (Gen.k0_off6_eq c 0) rfl rfl
    (fun t ht => by omega) (fun t ht => by omega) f))

theorem storeD1_pts
    (f : Buf (Elt F) ((oM.access (Rect.unit (s := S1024x512) (k0_off6 c (w128 1)) S128x512.size (k0_off6_inb c 1))).loc
      (c : Thread nD τ))) :
    ((oM.access (Rect.unit (s := S1024x512) (k0_off6 c (w128 1)) S128x512.size (k0_off6_inb c 1))).loc (c : Thread nD τ)
        ↦[(slD c 1).view.set]{fullShare}
      ((oM.access (Rect.unit (s := S1024x512) (k0_off6 c (w128 1)) S128x512.size (k0_off6_inb c 1))).write (Elt F) f
        (truncf .bf16 (xM.view.readAt (Elt F)
          (Rect.unit (s := S512x512) ![384, 0] S128x512.size inb_S512x512_S128x512_384_0).toLoadRect (xin m c))
          bitsLt_bf16_f32) Finset.univ) : sProp 𝕄)
      ⊢ pts (slD c 1) c (outF m c) :=
  Entails.of_eq (Region.is_congr (store_val m c 128 (off6_eq_off7 c 1) (Gen.k0_off6_eq c 1) rfl rfl
    (fun t ht => by omega) (fun t ht => by omega) f))

theorem storeK_pts
    (f : Buf (Elt F) ((oM.access (Rect.unit (s := S1024x512) (k0_off9 c) S128x512.size (k0_off9_inb c))).loc
      (c : Thread nD τ))) :
    ((oM.access (Rect.unit (s := S1024x512) (k0_off9 c) S128x512.size (k0_off9_inb c))).loc (c : Thread nD τ)
        ↦[(slK c).view.set]{fullShare}
      ((oM.access (Rect.unit (s := S1024x512) (k0_off9 c) S128x512.size (k0_off9_inb c))).write (Elt F) f
        (truncf .bf16 (xM.view.readAt (Elt F)
          (Rect.unit (s := S512x512) (k0_off8 c) S128x512.size (k0_off8_inb c)).toLoadRect (xin m c))
          bitsLt_bf16_f32) Finset.univ) : sProp 𝕄)
      ⊢ pts (slK c) c (outF m c) :=
  Entails.of_eq (Region.is_congr (store_val m c 128 rfl (Gen.k0_off9_eq c) (Gen.k0_off8_eq c) rfl
    (fun t ht => by omega) (fun t ht => by omega) f))

end Cert.Kernel.AG

end
-- ==== Proof.W.Part12.lean ====
import proofs.«900690_g7700000000000691_dist_ag_v7x_xyz2x4x4_x_m512_n512_bf16_1_alg».proof.Proof.W.Waits
import proofs.«900690_g7700000000000691_dist_ag_v7x_xyz2x4x4_x_m512_n512_bf16_1_alg».proof.Proof.W.Credit
import proofs.«900690_g7700000000000691_dist_ag_v7x_xyz2x4x4_x_m512_n512_bf16_1_alg».proof.Proof.W.Vals

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.ProofMode Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

variable (K : Dev nD × Fin 25 → ℕ) (c : Dev nD)

local notation "WP" => wp frame (wpE (defs₀ (F := F)) 𝒱₀ c none) Set.univ

private theorem mem_duties (c : Dev nD) (j : Fin 25) : () ∈ (sched (F := F) m).duties (kcell (c, j)) 0 := by
  rw [duties_cell]; exact Finset.mem_singleton_self _

-- Every cell's invariant and round-0 mark are among the records every part keeps.
private theorem pers_cell (ck : Dev nD × Fin 25) :
    pers m K ⊢ iprop(□ (cellInv ER (sched m) (K ck) (kcell ck) ∗ reached ER (kcell ck) 0)) := by
  unfold pers records
  iintro ⟨⟨#HI, #HR⟩, -⟩
  imodintro
  isplitr
  · iapply (inv_at m K ck); iexact HI
  · iapply (reached_at (F := F) ck); iexact HR

-- Cell `j` of the device has one duty, of the copy's size; the piece written and the source piece make its payload.
private theorem wp_copyL (j : Fin 25) (hj : pr c j = c) {s : Shape}
    (src : Memref sig .tc .hbm s .f32) (dst : Memref sig .tc .vmem s .f32) (fs : Buf (Elt F) (src.view.loc (c : Thread nD τ)))
    (sem : SemLoc sig) (hs : sem = csem j) (hN : dst.view.amount (csem j) = amt j)
    (hpay : ∀ fd, iprop((dst.view.loc (c : Thread nD τ) ↦[dst.view.set]{fullShare}
          (dst.view.write (Elt F) fd (src.view.read (Elt F) fs) Finset.univ)) ∗ pts src c fs)
      ⊢ ((sched m).payload (kcell (c, j)) 0 () : sProp 𝕄))
    {hsrc : src.view.WordExact} {hdst : dst.view.WordExact} {hsem : DmaTarget.Typed .hbm sem (.here dst : DmaTarget nD τ sig .tc .vmem s .f32)}
    {α : Type} {Q : α → sProp 𝕄} {kk : PUnit → Prog (TpuEff nD τ sig (Elt F) Λ₀ .tc) α} :
    iprop(pers m K ∗ pts src c fs ∗ ptsAny dst c ∗ tok c j)
      ⊢ iprop((crd c j -∗ WP (kk ⟨⟩) Q) -∗ WP (.op (.enqueueDma src (.here dst) sem hsrc hdst hsem) kk) Q) := by
  subst hs
  unfold ptsAny tok
  rw [hj]
  iintro ⟨#HP, Hs, ⟨%fd, Hd⟩, Ht⟩
  ihave ⟨#HI, #HR⟩ := (pers_cell m K (c, j)) $$ HP
  iapply (Rounds.wp_copy_pointsTo 𝒱₀ ER (sched m) (c : Thread nD τ) none (src := src) (dst := dst) (sem := csem j)
      (q := fullShare) (fs := fs) (fd := fd) (κ := K (c, j)) (r := 0) (d := ()) (mem_duties m c j) () (amt j) hN
      (amount_cell m c j ()) (hpay fd))
  iframe # ∗

abbrev rowsA (k : Fin 4) : Rect S1024x512 := Rect.unit (s := S1024x512) (k0_off4 c (w32 k)) S32x512.size (k0_off4_inb c k)

-- On the rows of chunk `k` the launched block, truncated to bf16, is the result's final contents.
theorem wp_chunkA (k : Fin 4) (pf : Vec F S32x512 .f32 → FVec F S32x512 .bf16)
    (hpf : pf = fun v => truncf .bf16 v bitsLt_bf16_f32) (f : Buf (Elt F) ((slA c k).view.loc (c : Thread nD τ)))
    {h1 : _} {h2 : _} {h3 : _} {h4 : _}
    {α : Type} {Q : α → sProp 𝕄} {kk : PUnit → Prog (TpuEff nD τ sig (Elt F) Λ₀ .tc) α} :
    iprop(pts (xvA c) c (xin m c) ∗ pts (slA c k) c f)
      ⊢ iprop(((pts (xvA c) c (xin m c) ∗ pts (slA c k) c (outF m c)) -∗ WP (kk ⟨⟩) Q)
          -∗ WP (.op (.load xM (Rect.unit (s := S512x512) (k0_off3 c (w32 k)) S32x512.size (k0_off3_inb c k)).toLoadRect h1) fun v =>
            .op (.load oM (rowsA c k).toLoadRect h2) fun _ => .op (.store oM (rowsA c k) (pf v) Finset.univ h3 h4) kk) Q) := by
  subst hpf
  iintro ⟨Hx, Ho⟩ Hk
  iapply (wp_load 𝒱₀ (c : Thread nD τ) none Set.univ (m := xM) (loadA_sub c k)) $$ Hx; iintro Hx
  iapply (wp_load 𝒱₀ (c : Thread nD τ) none Set.univ (m := oM) (accA_load_sub c k)) $$ Ho; iintro Ho
  iapply (wp_store 𝒱₀ (c : Thread nD τ) none Set.univ (m := oM) (r := rowsA c k) (Mk := Finset.univ) (accA_store_sub c k)) $$ Ho; iintro Ho
  iapply Hk; iframe Hx
  iapply (storeA_pts m c k f); iexact Ho

theorem part1_proof  (Q : (Σ' (d0 : Dev nD) (v2 : BitVec 32) (v5 : BitVec 32) (v8 : BitVec 32) (v10 : BitVec 32) (v13 : BitVec 32) (v14 : BitVec 32) (v16 : BitVec 32) (v18 : BitVec 32) (v19 : BitVec 32) (v21_r0 : Sems sig S_) (v31_r0 : BitVec 32), BitVec 32) → sProp 𝕄) :
    iprop(pers m K
        ∗ owesE c 0
        ∗ tok c 0
        ∗ ptsAny (slA (px c) 0) c
        ∗ ptsAny (slA (px c) 1) c
        ∗ ptsAny (slA (px c) 2) c
        ∗ ptsAny (slA (px c) 3) c
        ∗ ptsAny (slD (px c) 0) c
        ∗ ptsAny (slD (px c) 1) c
        ∗ (∀ v2 : BitVec 32, ∀ v5 : BitVec 32, ∀ v8 : BitVec 32, ∀ v10 : BitVec 32, ∀ v13 : BitVec 32, ∀ v14 : BitVec 32, ∀ v16 : BitVec 32, ∀ v18 : BitVec 32, ∀ v19 : BitVec 32, ∀ v31 : BitVec 32, ∀ v32 : BitVec 32, iprop(owesE c 1) -∗ Q ⟨c, v2, v5, v8, v10, v13, v14, v16, v18, v19, (SemArray.scalar (sig.barrier 0 rfl) : Sems sig S_), v31, v32⟩))
      ⊢ WP (pt1) Q := by
  unfold pt1 atLaunch
  rw [k0_part1_eq_skeleton]; unfold k0_part1_skel
  simp only [semSignalWord, Prog.lift, Prog.bind_op, Prog.bind_ret, Prog.pure_eq_ret, wp_deviceId, dev1_eq]
  unfold owesE
  iintro ⟨#HP, ⟨%W, HO⟩, Ht, HA0, HA1, HA2, HA3, HD0, HD1, Hk⟩
  ihave ⟨#HI0, #HR0⟩ := (pers_cell m K (px c, 0)) $$ HP
  iapply (Rounds.wp_signal 𝒱₀ ER (sched m) (c : Thread nD τ) none (dst := (px c : Thread nD τ)) (sem := barS) (κ := K (px c, 0))
      (r := 0) (d := ()) (mem_duties m (px c) 0)
      ((amount_cell m (px c) 0 ()).trans (by decide)) () (Oat c 1) rfl)
    $$ [HO Ht HA0 HA1 HA2 HA3 HD0 HD1]
  · rw [show (sched m).payload ((px c : Thread nD τ), SemLoc.reg barS) 0 () = barPay (px c) from payload_cell m (px c) 0 ()]
    unfold barPay; rw [px_px]
    iframe ∗
    isplitr; · iexact HI0
    isplitl [HO]; · iexact HO
    isplitl [Ht]; · iexact Ht
    iexact HR0
  iintro HO
  rw [wp_ret]; imodintro
  iapply Hk
  iexists W
  iexact HO

theorem part2_proof (v5 v8 v10 v14 v18 v31 v32 : BitVec 32) (Q : PUnit → sProp 𝕄) :
    iprop(pers m K
        ∗ owesE c 1
        ∗ tok c 1
        ∗ ptsAny (slF (pz c) 0) c
        ∗ ptsAny (slF (pz c) 1) c
        ∗ ptsAny (slF (pz c) 2) c
        ∗ ptsAny (slF (pz c) 3) c
        ∗ tok c 2
        ∗ tok c 3
        ∗ tok c 4
        ∗ ptsAny (xvA c) c
        ∗ ptsAny xvB c
        ∗ ptsAny (xvC c) c
        ∗ pts (hbA c) c (xin m c)
        ∗ pts hbB c (xin m c)
        ∗ pts (hbC c) c (xin m c)
        ∗ pos0 c 0
        ∗ crd c 0
        ∗ pos0 c 2
        ∗ ptsAny (slA c 0) c
        ∗ (iprop(owesE c 2
        ∗ crd c 3
        ∗ crd c 4
        ∗ pos1 c 0
        ∗ barPay c
        ∗ pos1 c 2
        ∗ pts (xvA c) c (xin m c)
        ∗ pts (hbA c) c (xin m c)
        ∗ pts (slA c 0) c (outF m c)) -∗ Q ⟨⟩))
      ⊢ WP (pt2 c v5 v8 v10 v14 v18 (SemArray.scalar (sig.barrier 0 rfl) : Sems sig S_) v31 v32) Q := by
  unfold pt2 atLaunch
  rw [k0_part2_eq_skeleton]; unfold k0_part2_skel
  simp only [semSignalWord, semWaitWord, Prog.lift, Prog.bind_op, Prog.bind_ret, Prog.pure_eq_ret, wp_deviceId, dev2_eq]
  unfold owesE
  iintro ⟨#HP, ⟨%W, HO⟩, Ht1, HF0, HF1, HF2, HF3, Ht2, Ht3, Ht4, HxA, HxB, HxC, HhA, HhB, HhC, Hp0, Hc0, Hp2, Ho, Hk⟩
  ihave ⟨#HI1, #HR1⟩ := (pers_cell m K (pz c, 1)) $$ HP
  iapply (Rounds.wp_signal 𝒱₀ ER (sched m) (c : Thread nD τ) none (dst := (pz c : Thread nD τ)) (sem := pzS) (κ := K (pz c, 1))
      (r := 0) (d := ()) (mem_duties m (pz c) 1)
      ((amount_cell m (pz c) 1 ()).trans (by decide)) () (Oat c 2) rfl)
    $$ [HO Ht1 HF0 HF1 HF2 HF3]
  · rw [show (sched m).payload ((pz c : Thread nD τ), SemLoc.reg pzS) 0 () = pzPay (pz c) from payload_cell m (pz c) 1 ()]
    unfold pzPay; rw [pz_pz]
    iframe ∗
    isplitr; · iexact HI1
    isplitl [HO]; · iexact HO
    isplitl [Ht1]; · iexact Ht1
    iexact HR1
  iintro HO
  iapply (wp_copyL m K c 2 rfl (hbA c) (xvA c) (xin m c) _ rfl rfl (copyA_pay m c)) $$ [$]
  iintro HcA
  iapply (wp_copyL m K c 3 rfl hbB xvB (xin m c) _ rfl rfl (copyB_pay m c)) $$ [$]
  iintro HcB
  iapply (wp_copyL m K c 4 rfl (hbC c) (xvC c) (xin m c) _ rfl rfl (copyC_pay m c)) $$ [$]
  iintro HcC
  iapply (wait_reg m K c 0 2 (mayWait_bar c) (hq := by rfl) (hn := by decide) W) $$ [$]
  iintro ⟨HO, Hp0, Hbar⟩
  ihave Hbar := (Entails.of_eq (show pay m c 0 = barPay c from rfl)) $$ Hbar
  iapply (wait_dma m K c 2 2 (mayWait_la c) (hq := by rfl) (hamt := show (xvA c).view.dmaCredit = amt 2 from rfl) (insert (csem 0, ()) W)) $$ [$]
  iintro ⟨HO, Hp2, HpayA⟩
  ihave HpayA := (Entails.of_eq (show pay m c 2 = iprop(_ ∗ _) from rfl)) $$ HpayA
  icases HpayA with ⟨HxA, HhA⟩
  unfold ptsAny
  icases Ho with ⟨%fo, Ho⟩
  iapply (wp_chunkA m c 0 k0_pay1 rfl fo) $$ [$]
  iintro ⟨HxA, Ho⟩
  rw [wp_ret]; imodintro
  iapply Hk
  iframe
  iexists _; iexact HO

end Cert.Kernel.AG

end
-- ==== Proof.W.Sends.lean ====
import proofs.«900690_g7700000000000691_dist_ag_v7x_xyz2x4x4_x_m512_n512_bf16_1_alg».proof.Proof.W.Waits
import proofs.«900690_g7700000000000691_dist_ag_v7x_xyz2x4x4_x_m512_n512_bf16_1_alg».proof.Proof.W.Credit

noncomputable section

namespace Cert.Kernel.AG

open Idealize.ShloMosaic
open Idealize.ShloMosaic.TcCoe
open Idealize.SL.RA Idealize.SL.BI
open Idealize.SL.BI.BIBase Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

theorem records_inv (K : Dev nD × Fin 25 → ℕ) (ck : Dev nD × Fin 25) : records m K ⊢ cellInv ER (sched m) (K ck) (kcell ck) := by
  unfold records; iintro ⟨H, -⟩; iapply (inv_at m K ck) $$ H
theorem records_reached (K : Dev nD × Fin 25 → ℕ) (ck : Dev nD × Fin 25) : records m K ⊢ reached ER (kcell ck) 0 := by
  unfold records; iintro ⟨-, H⟩; iapply (reached_at ck) $$ H

-- The copy pays the one duty of its departure cell and of its landing cell, so what is owed drops by the landing's amount.
theorem send_remote (K : Dev nD × Fin 25 → ℕ) (c n n' : Dev nD) (js jr : Fin 25) (hc : pr c js = c) (hn : n = n') (hp : n' = pr c jr)
    (qs qr : DmaSem sig) (hqs : csem js = .dma qs) (hqr : csem jr = .dma qr)
    {sp sp' : Space} {s : Shape} {e : EltTy} (src : Memref sig .tc sp s e) (dst : Memref sig .tc sp' s e)
    {hsc : dst.view.ref.isScScratch = false}
    {hsrc : src.view.WordExact} {hdst : dst.view.WordExact}
    {hsem : DmaTarget.Typed (nD := nD) (τ := τ) (p := Proc.tc) sp (.dma qr) (.remote (Dev.tc n : Thread nD τ) dst (.dma qs) hsc)}
    (fs : Buf (Elt F) (src.view.loc (c : Thread nD τ))) (fd : Buf (Elt F) (dst.view.loc (n' : Thread nD τ)))
    (i : ℕ) (W : Waits sig Unit)
    (hN : dst.view.amount (.dma qr) = amt jr) (hamt : amt js = amt jr)
    (hO : Oat c i = Oat c (i + 1) + tallyAt (kcell (pr c jr, jr)) () (amt jr))
    (hpay₁ : (src.view.loc (c : Thread nD τ) ↦[src.view.set]{fullShare} fs) ⊢ (sched m).payload (kcell (c, js)) 0 ())
    (hpay₂ : (dst.view.loc (n' : Thread nD τ) ↦[dst.view.set]{fullShare} (dst.view.write (Elt F) fd (src.view.read (Elt F) fs) Finset.univ))
      ⊢ (sched m).payload (kcell (n', jr)) 0 ())
    {α : Type} {Q : α → sProp 𝕄} {k : PUnit → Prog (TpuEff nD τ sig (Elt F) Λ₀ .tc) α} :
    iprop(pers m K ∗ (src.view.loc (c : Thread nD τ) ↦[src.view.set]{fullShare} fs) ∗ (dst.view.loc (n' : Thread nD τ) ↦[dst.view.set]{fullShare} fd)
        ∗ owes (c : Thread nD τ) (Oat c i) W ∗ tok c js ∗ tok c jr)
      ⊢ iprop(((crd c js ∗ owes (c : Thread nD τ) (Oat c (i + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn; subst hp
  have hcs : kcell (c, js) = ((c : Thread nD τ), SemLoc.dma qs) := congrArg (Prod.mk _) hqs
  have hcr : kcell (pr c jr, jr) = ((pr c jr : Thread nD τ), SemLoc.dma qr) := congrArg (Prod.mk _) hqr
  have hO' : Oat c i = Oat c (i + 1) + tallyAt ((pr c jr : Thread nD τ), SemLoc.dma qr) () (amt jr) := by rw [hO, hcr]
  iintro ⟨⟨#Hrec, -⟩, Hs, Hd, HO, Ht₁, Ht₂⟩
  unfold tok crd
  rw [hc, hamt, hcs, hcr]
  iapply (Rounds.wp_send_pointsTo 𝒱₀ ER (sched m) (c : Thread nD τ) none (c' := (pr c jr : Thread nD τ)) (src := src) (dst := dst)
    (sS := .dma qs) (sem := .dma qr) (q := fullShare) (fs := fs) (fd := fd) (r₁ := 0) (r₂ := 0) (d₁ := ()) (d₂ := ())
    (κ₁ := K (c, js)) (κ₂ := K (pr c jr, jr))
    (by rw [← hcs, duties_cell]; exact Finset.mem_singleton_self _) (by rw [← hcr, duties_cell]; exact Finset.mem_singleton_self _)
    () () (amt jr) hN (by rw [← hcs, amount_cell, hamt]) (by rw [← hcr, amount_cell]) (Oat c (i + 1)) hO' (W := W)
    (by rw [← hcs]; exact hpay₁) (by rw [← hcr]; exact hpay₂))
  rw [← hcs, ← hcr]
  isplitr; · iapply (records_inv m K (c, js)); iexact Hrec
  isplitr; · iapply (records_inv m K (pr c jr, jr)); iexact Hrec
  iframe Hs Hd HO Ht₁ Ht₂
  isplitr; · iapply (records_reached m K (c, js)); iexact Hrec
  iapply (records_reached m K (pr c jr, jr)); iexact Hrec

end Cert.Kernel.AG

end
-- ==== Proof.W.Part34.lean ====
import proofs.«900690_g7700000000000691_dist_ag_v7x_xyz2x4x4_x_m512_n512_bf16_1_alg».proof.Proof.W.Part12
import proofs.«900690_g7700000000000691_dist_ag_v7x_xyz2x4x4_x_m512_n512_bf16_1_alg».proof.Proof.W.Sends

noncomputable section

namespace Cert.Kernel.AG

open Cert.Kernel Cert.Kernel.Gen
open Idealize.ShloMosaic
open Idealize.ShloMosaic.TcCoe
open Idealize.SL Idealize.SL.BI
open scoped Idealize.SL.BI
open Idealize.SL.BI.BIBase Idealize.SL.ProofMode Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

variable (K : Dev nD × Fin 25 → ℕ) (c : Dev nD)

local notation "WP" => wp frame (wpE (defs₀ (F := F)) 𝒱₀ c none) Set.univ

theorem part3_proof (v5 v8 v10 v14 v18 : BitVec 32) (Q : PUnit → sProp 𝕄) :
    iprop(pers m K
        ∗ owesE c 2
        ∗ pts (xvA c) c (xin m c)
        ∗ pts (slA c 0) c (outF m c)
        ∗ ptsAny (slA c 0) (px c)
        ∗ tok c 5
        ∗ tok c 9
        ∗ ptsAny (slA c 1) c
        ∗ ptsAny (slA c 1) (px c)
        ∗ tok c 6
        ∗ tok c 10
        ∗ ptsAny (slA c 2) c
        ∗ (iprop(owesE c 4
        ∗ pts (xvA c) c (xin m c)
        ∗ crd c 5
        ∗ crd c 6
        ∗ pts (slA c 2) c (outF m c)) -∗ Q ⟨⟩))
      ⊢ WP (pt3 c v5 v8 v10 v14 v18) Q := by
  unfold pt3 atLaunch
  rw [k0_part3_eq_skeleton]
  unfold k0_part3_skel
  simp only [Prog.lift, Prog.bind_op, Prog.bind_ret, Prog.pure_eq_ret]
  unfold owesE ptsAny
  iintro ⟨#Hp, ⟨%W, HO⟩, Hxv, HA0, ⟨%f0, HA0p⟩, Ht5, Ht9, ⟨%f1, HA1⟩, ⟨%f1p, HA1p⟩, Ht6, Ht10, ⟨%f2, HA2⟩, Hk⟩
  iapply (send_remote m K c _ (px c) 5 9 rfl (dev3_eq c) rfl _ _ rfl rfl (slA c 0) (slA c 0) _ _ 2 W rfl rfl rfl (srcA_pay m c 0) (sendA_pay m c 0 f0)) $$ [$]
  iintro ⟨Hc5, HO⟩
  iapply (wp_chunkA m c 1 k0_pay2 rfl f1) $$ [$]
  iintro ⟨Hxv, HA1⟩
  iapply (send_remote m K c _ (px c) 6 10 rfl (dev4_eq c) rfl _ _ rfl rfl (slA c 1) (slA c 1) _ _ 3 W rfl rfl rfl (srcA_pay m c 1) (sendA_pay m c 1 f1p)) $$ [$]
  iintro ⟨Hc6, HO⟩
  iapply (wp_chunkA m c 2 k0_pay3 rfl f2) $$ [$]
  iintro ⟨Hxv, HA2⟩
  rw [wp_ret]; imodintro
  iapply Hk
  iframe
  iexists _; iexact HO

theorem part4_proof (v5 v8 v10 v14 v18 : BitVec 32) (Q : FVec F S128x512 .bf16 → sProp 𝕄) :
    iprop(pers m K
        ∗ owesE c 4
        ∗ pts (xvA c) c (xin m c)
        ∗ pts (slA c 2) c (outF m c)
        ∗ ptsAny (slA c 2) (px c)
        ∗ tok c 7
        ∗ tok c 11
        ∗ ptsAny (slA c 3) c
        ∗ ptsAny (slA c 3) (px c)
        ∗ tok c 8
        ∗ tok c 12
        ∗ pos0 c 3
        ∗ crd c 3
        ∗ (iprop(owesE c 6
        ∗ pts (xvA c) c (xin m c)
        ∗ crd c 7
        ∗ crd c 8
        ∗ pos1 c 3
        ∗ pts xvB c (xin m c)
        ∗ pts hbB c (xin m c)) -∗ Q (d0val m c)))
      ⊢ WP (pt4 c v5 v8 v10 v14 v18) Q := by
  unfold pt4 atLaunch
  rw [k0_part4_eq_skeleton]
  unfold k0_part4_skel
  simp only [Prog.lift, Prog.bind_op, Prog.bind_ret, Prog.pure_eq_ret]
  unfold owesE ptsAny d0val
  iintro ⟨#Hp, ⟨%W, HO⟩, Hxv, HA2, ⟨%f2p, HA2p⟩, Ht7, Ht11, ⟨%f3, HA3⟩, ⟨%f3p, HA3p⟩, Ht8, Ht12, Hat3, Hc3, Hk⟩
  iapply (send_remote m K c _ (px c) 7 11 rfl (dev5_eq c) rfl _ _ rfl rfl (slA c 2) (slA c 2) _ _ 4 W rfl rfl rfl (srcA_pay m c 2) (sendA_pay m c 2 f2p)) $$ [$]
  iintro ⟨Hc7, HO⟩
  iapply (wp_chunkA m c 3 k0_pay4 rfl f3) $$ [$]
  iintro ⟨Hxv, HA3⟩
  iapply (send_remote m K c _ (px c) 8 12 rfl (dev6_eq c) rfl _ _ rfl rfl (slA c 3) (slA c 3) _ _ 5 W rfl rfl rfl (srcA_pay m c 3) (sendA_pay m c 3 f3p)) $$ [$]
  iintro ⟨Hc8, HO⟩
  iapply (wait_dma m K c 3 6 (mayWait_lb c) (hq := rfl) (hamt := rfl) W) $$ [$]
  iintro ⟨HO, Hat3, Hpay⟩
  ihave Hpay := (Entails.of_eq (show pay m c 3 = iprop(_ ∗ _) from rfl)) $$ Hpay
  icases Hpay with ⟨HxB, HhB⟩
  iapply (wp_load 𝒱₀ (c : Thread nD τ) none Set.univ (m := xM) loadD0_sub) $$ HxB
  iintro HxB
  rw [wp_ret]; imodintro
  iapply Hk
  iframe
  iexists _; iexact HO

end Cert.Kernel.AG

end
-- ==== Proof.W.Part5.lean ====
import proofs.«900690_g7700000000000691_dist_ag_v7x_xyz2x4x4_x_m512_n512_bf16_1_alg».proof.Proof.W.Sends
import proofs.«900690_g7700000000000691_dist_ag_v7x_xyz2x4x4_x_m512_n512_bf16_1_alg».proof.Proof.W.Vals

namespace Cert.Kernel.AG

open Cert.Kernel Cert.Kernel.Gen Idealize.ShloMosaic Idealize.ShloMosaic.TcCoe Idealize.SL Idealize.SL.BI
  Idealize.SL.BI.BIBase Idealize.SL.ProofMode Idealize.SL.Sem

variable {F : FTy → Type} [FloatOps F] (m : (ℓ : Loc nD τ sig) → Buf (Elt F) ℓ) (K : Dev nD × Fin 25 → ℕ) (c : Dev nD)

local notation "𝕄" => MT nD τ sig Unit (Elt F) ℕ UU ℕ
local notation "WP" => wp frame (wpE (defs₀ (F := F)) 𝒱₀ c none) Set.univ

-- Each 128-row chunk of the lower half gets its final rows and is copied to the x-partner, its departure and landing paid.
theorem part5_proof (v5 v8 v10 v14 : BitVec 32) (Q : PUnit → sProp 𝕄) :
    iprop(pers m K
        ∗ owesE c 6
        ∗ pts xvB c (xin m c)
        ∗ ptsAny (slD c 0) c
        ∗ ptsAny (slD c 0) (px c)
        ∗ tok c 13
        ∗ tok c 15
        ∗ ptsAny (slD c 1) c
        ∗ ptsAny (slD c 1) (px c)
        ∗ tok c 14
        ∗ tok c 16
        ∗ (iprop(owesE c 8
        ∗ pts xvB c (xin m c)
        ∗ crd c 13
        ∗ crd c 14) -∗ Q ⟨⟩))
      ⊢ WP (pt5 c v5 v8 v10 v14 (d0val m c)) Q := by
  unfold pt5 atLaunch
  rw [k0_part5_eq_skeleton]
  unfold k0_part5_skel
  simp only [Prog.lift, Prog.bind_op, Prog.bind_ret, Prog.pure_eq_ret, d0val, k0_pay5, k0_pay6]
  unfold owesE ptsAny
  iintro ⟨#Hp, ⟨%W, HO⟩, HxB, ⟨%f0, HD0⟩, ⟨%g0, HD0p⟩, Ht13, Ht15, ⟨%f1, HD1⟩, ⟨%g1, HD1p⟩, Ht14, Ht16, Hk⟩
  iapply (wp_load 𝒱₀ (c : Thread nD τ) none Set.univ (m := oM) (accD_load_sub c 0)) $$ HD0; iintro HD0
  iapply (wp_store 𝒱₀ (c : Thread nD τ) none Set.univ (r := (Rect.unit (s := S1024x512) (k0_off6 c (w128 0)) S128x512.size (k0_off6_inb c 0))) (accD_store_sub c 0)) $$ HD0; iintro HD0
  ihave HD0 := (storeD0_pts m c f0) $$ HD0
  iapply (send_remote m K c _ (px c) 13 15 rfl (dev7_eq c) rfl _ _ rfl rfl (slD c 0) (slD c 0) _ _ 6 _ rfl rfl rfl
      (srcD_pay m c 0) (sendD_pay m c 0 g0)) $$ [HO HD0 HD0p Ht13 Ht15]
  · iframe # ∗
  iintro ⟨Hc13, HO⟩
  iapply (wp_load 𝒱₀ (c : Thread nD τ) none Set.univ (m := xM) loadD1_sub) $$ HxB; iintro HxB
  iapply (wp_load 𝒱₀ (c : Thread nD τ) none Set.univ (m := oM) (accD_load_sub c 1)) $$ HD1; iintro HD1
  iapply (wp_store 𝒱₀ (c : Thread nD τ) none Set.univ (r := (Rect.unit (s := S1024x512) (k0_off6 c (w128 1)) S128x512.size (k0_off6_inb c 1))) (accD_store_sub c 1)) $$ HD1; iintro HD1
  ihave HD1 := (storeD1_pts m c f1) $$ HD1
  iapply (send_remote m K c _ (px c) 14 16 rfl (dev8_eq c) rfl _ _ rfl rfl (slD c 1) (slD c 1) _ _ 7 _ rfl rfl rfl
      (srcD_pay m c 1) (sendD_pay m c 1 g1)) $$ [HO HD1 HD1p Ht14 Ht16]
  · iframe # ∗
  iintro ⟨Hc14, HO⟩
  rw [wp_ret]; imodintro
  iapply Hk
  iframe
  iexists W; iexact HO

end Cert.Kernel.AG
-- ==== Proof.W.Part6.lean ====
import proofs.«900690_g7700000000000691_dist_ag_v7x_xyz2x4x4_x_m512_n512_bf16_1_alg».proof.Proof.W.Waits
import proofs.«900690_g7700000000000691_dist_ag_v7x_xyz2x4x4_x_m512_n512_bf16_1_alg».proof.Proof.W.Sends
import proofs.«900690_g7700000000000691_dist_ag_v7x_xyz2x4x4_x_m512_n512_bf16_1_alg».proof.Proof.W.Vals

namespace Cert.Kernel.AG

open Cert.Kernel Cert.Kernel.Gen Idealize.ShloMosaic Idealize.ShloMosaic.TcCoe Idealize.SL Idealize.SL.BI
  Idealize.SL.BI.BIBase Idealize.SL.ProofMode Idealize.SL.Sem

variable {F : FTy → Type} [FloatOps F] (m : (ℓ : Loc nD τ sig) → Buf (Elt F) ℓ) (K : Dev nD × Fin 25 → ℕ) (c : Dev nD)

local notation "𝕄" => MT nD τ sig Unit (Elt F) ℕ UU ℕ
local notation "WP" => wp frame (wpE (defs₀ (F := F)) 𝒱₀ c none) Set.univ

-- Three waits hand over their payloads; the kept quarter gets its final rows; the x-partner's first chunk goes on to the z-partner.
theorem part6_proof (v2 v5 v8 v10 v13 v14 v16 v18 v19 : BitVec 32) (Q : BitVec 32 → sProp 𝕄) :
    iprop(pers m K
        ∗ owesE c 8
        ∗ pos0 c 4
        ∗ crd c 4
        ∗ ptsAny (slK c) c
        ∗ pos0 c 1
        ∗ crd c 1
        ∗ pos0 c 9
        ∗ crd c 9
        ∗ tok c 17
        ∗ tok c 21
        ∗ (∀ w : BitVec 32, iprop(owesE c 9
        ∗ pos1 c 4
        ∗ pts (xvC c) c (xin m c)
        ∗ pts (hbC c) c (xin m c)
        ∗ pts (slK c) c (outF m c)
        ∗ pos1 c 1
        ∗ ptsAny (slF c 1) (pz c)
        ∗ ptsAny (slF c 2) (pz c)
        ∗ ptsAny (slF c 3) (pz c)
        ∗ pos1 c 9
        ∗ crd c 17) -∗ Q w))
      ⊢ WP (pt6 c v2 v5 v8 v10 v13 v14 v16 v18 v19) Q := by
  unfold pt6 atLaunch
  rw [k0_part6_eq_skeleton]
  unfold k0_part6_skel
  simp only [semWaitWord, Prog.lift, Prog.bind_op, Prog.bind_ret, Prog.pure_eq_ret, k0_pay7]
  unfold owesE ptsAny
  iintro ⟨#Hp, ⟨%W, HO⟩, Hat4, Hc4, ⟨%fk, HK⟩, Hat1, Hc1, Hat9, Hc9, Ht17, Ht21, Hk⟩
  iapply (wait_dma m K c 4 8 (mayWait_lc c) rfl (dst := xvC c) (hamt := rfl) _) $$ [$]
  rw [show pay m c 4 = iprop(pts (xvC c) c (xin m c) ∗ pts (hbC c) c (xin m c)) from rfl]
  iintro ⟨HO, Hat4, Hx, Hh⟩
  iapply (wp_load 𝒱₀ (c : Thread nD τ) none Set.univ (m := xM) (loadK_sub c)) $$ Hx; iintro Hx
  iapply (wp_load 𝒱₀ (c : Thread nD τ) none Set.univ (m := oM) (accK_load_sub c)) $$ HK; iintro HK
  iapply (wp_store 𝒱₀ (c : Thread nD τ) none Set.univ (r := Rect.unit (s := S1024x512) (k0_off9 c) S128x512.size (k0_off9_inb c)) (accK_store_sub c)) $$ HK; iintro HK
  ihave HK := (storeK_pts m c fk) $$ HK
  iapply (wait_reg m K c 1 8 (mayWait_pz c) rfl rfl _) $$ [$]
  rw [show pay m c 1 = pzPay c from rfl]
  unfold pzPay ptsAny
  iintro ⟨HO, Hat1, ⟨%fd, Hf0⟩, Hf1, Hf2, Hf3⟩
  iapply (wait_dma m K c 9 8 (mayWait_afR c 0) rfl (dst := slA c 0) (hamt := rfl) _) $$ [$]
  rw [show pay m c 9 = pts (slA (px c) 0) c (outF m c) from rfl]
  iintro ⟨HO, Hat9, Hs⟩
  ihave Hs := (pts_slA_slF c 0 (outF m c)) $$ Hs
  iapply (send_remote m K c _ (pz c) 17 21 rfl (dev9_eq c) rfl _ _ rfl rfl (slF c 0) (slF c 0) _ _ 8 _ rfl rfl rfl (srcF_pay m c 0) (sendF_pay m c 0 fd)) $$ [$]
  iintro ⟨Hc17, HO⟩
  rw [wp_ret]; imodintro
  iapply Hk
  iframe
  iexists _; iexact HO

end Cert.Kernel.AG
-- ==== Proof.W.Part789.lean ====
import proofs.«900690_g7700000000000691_dist_ag_v7x_xyz2x4x4_x_m512_n512_bf16_1_alg».proof.Proof.W.Credit
import proofs.«900690_g7700000000000691_dist_ag_v7x_xyz2x4x4_x_m512_n512_bf16_1_alg».proof.Proof.W.Vals
import proofs.«900690_g7700000000000691_dist_ag_v7x_xyz2x4x4_x_m512_n512_bf16_1_alg».proof.Proof.W.Waits
import proofs.«900690_g7700000000000691_dist_ag_v7x_xyz2x4x4_x_m512_n512_bf16_1_alg».proof.Proof.W.Sends

noncomputable section

namespace Cert.Kernel.AG

open Cert.Kernel.Gen
open Idealize.ShloMosaic Idealize.ShloMosaic.TcCoe Idealize.ShloMosaic.Rounds
open Idealize.SL Idealize.SL.BI Idealize.SL.BI.BIBase Idealize.SL.ProofMode Idealize.SL.Sem

variable {F : FTy → Type} [FloatOps F]

variable (m : (ℓ : Loc nD τ sig) → Buf (Elt F) ℓ) (K : Dev nD × Fin 25 → ℕ) (c : Dev nD)

local notation "𝕄" => MT nD τ sig Unit (Elt F) ℕ UU ℕ

local notation "WP" => wp frame (wpE (defs₀ (F := F)) 𝒱₀ c none) Set.univ

/-- Chunk 1 arrives from the x-partner and goes on to the z-partner; then chunk 2 arrives. -/
theorem part7_proof (v2 v5 v8 v10 v13 v16 v18 v192 : BitVec 32) (Q : (Σ' (v226_r0 : BitVec 32), BitVec 32) → sProp 𝕄) :
    iprop(pers m K
        ∗ owesE c 9
        ∗ pos0 c 10
        ∗ crd c 10
        ∗ ptsAny (slF c 1) (pz c)
        ∗ tok c 18
        ∗ tok c 22
        ∗ pos0 c 11
        ∗ crd c 11
        ∗ (∀ w : BitVec 32, ∀ w' : BitVec 32, iprop(owesE c 10
        ∗ pos1 c 10
        ∗ crd c 18
        ∗ pos1 c 11
        ∗ pts (slA (px c) 2) c (outF m c)) -∗ Q ⟨w, w'⟩))
      ⊢ WP (pt7 c v2 v5 v8 v10 v13 v16 v18 v192) Q := by
  unfold pt7 atLaunch
  rw [k0_part7_eq_skeleton]; unfold k0_part7_skel
  simp only [semSignalWord, semWaitWord, Prog.lift, Prog.bind_op, Prog.bind_ret, Prog.pure_eq_ret, wp_deviceId]
  unfold owesE ptsAny
  iintro ⟨#Hp, ⟨%W, HO⟩, A0, C0, ⟨%fd, Hd⟩, T, T', A1, C1, Hk⟩
  iapply (wait_dma m K c 10 9 (mayWait_afR c 1) (by rfl) (by rfl) W) $$ [$]
  iintro ⟨HO, A0, Hs⟩
  ihave Hs := (show pay m c 10 ⊢ _ from pts_slA_slF c 1 _) $$ Hs
  iapply (send_remote m K c _ (pz c) 18 22 rfl (dev10_eq c) rfl _ _ rfl rfl (slF c 1) (slF c 1) _ fd 9 _ rfl rfl rfl (srcF_pay m c 1) (sendF_pay m c 1 fd)) $$ [$]
  iintro ⟨C, HO⟩
  iapply (wait_dma m K c 11 10 (mayWait_afR c 2) (by rfl) (by rfl) _) $$ [$]
  iintro ⟨HO, A1, Hr⟩
  ihave Hr := (show pay m c 11 ⊢ pts (slA (px c) 2) c _ from .rfl) $$ Hr
  rw [wp_ret]; imodintro
  iapply Hk; iframe
  iexists _; iexact HO

/-- Chunk 2 goes on to the z-partner; then chunk 3 arrives. -/
theorem part8_proof (v2 v5 v8 v10 v13 v16 v18 v226 c64 : BitVec 32) (Q : PUnit → sProp 𝕄) :
    iprop(pers m K
        ∗ owesE c 10
        ∗ pts (slA (px c) 2) c (outF m c)
        ∗ ptsAny (slF c 2) (pz c)
        ∗ tok c 19
        ∗ tok c 23
        ∗ pos0 c 12
        ∗ crd c 12
        ∗ (iprop(owesE c 11
        ∗ crd c 19
        ∗ pos1 c 12
        ∗ pts (slA (px c) 3) c (outF m c)) -∗ Q ⟨⟩))
      ⊢ WP (pt8 c v2 v5 v8 v10 v13 v16 v18 v226 c64) Q := by
  unfold pt8 atLaunch
  rw [k0_part8_eq_skeleton]; unfold k0_part8_skel
  simp only [semSignalWord, semWaitWord, Prog.lift, Prog.bind_op, Prog.bind_ret, Prog.pure_eq_ret, wp_deviceId]
  unfold owesE ptsAny
  iintro ⟨#Hp, ⟨%W, HO⟩, Hs, ⟨%fd, Hd⟩, T, T', A, C0, Hk⟩
  ihave Hs := (pts_slA_slF c 2 (outF m c)) $$ Hs
  iapply (send_remote m K c _ (pz c) 19 23 rfl (dev11_eq c) rfl _ _ rfl rfl (slF c 2) (slF c 2) _ fd 10 _ rfl rfl rfl (srcF_pay m c 2) (sendF_pay m c 2 fd)) $$ [$]
  iintro ⟨C, HO⟩
  iapply (wait_dma m K c 12 11 (mayWait_afR c 3) (by rfl) (by rfl) W) $$ [$]
  iintro ⟨HO, A, Hr⟩
  ihave Hr := (show pay m c 12 ⊢ pts (slA (px c) 3) c _ from .rfl) $$ Hr
  rw [wp_ret]; imodintro
  iapply Hk; iframe
  iexists _; iexact HO

/-- Chunk 3 goes on to the z-partner, the last of the device's dues; then the x-partner's lower half arrives. -/
theorem part9_proof (v2 v5 v8 v10 v13 : BitVec 32) (Q : PUnit → sProp 𝕄) :
    iprop(pers m K
        ∗ owesE c 11
        ∗ pts (slA (px c) 3) c (outF m c)
        ∗ ptsAny (slF c 3) (pz c)
        ∗ tok c 20
        ∗ tok c 24
        ∗ pos0 c 15
        ∗ crd c 15
        ∗ pos0 c 16
        ∗ crd c 16
        ∗ (iprop(owesE c 12
        ∗ crd c 20
        ∗ pos1 c 15
        ∗ pts (slD (px c) 0) c (outF m c)
        ∗ pos1 c 16
        ∗ pts (slD (px c) 1) c (outF m c)) -∗ Q ⟨⟩))
      ⊢ WP (pt9 c v2 v5 v8 v10 v13) Q := by
  unfold pt9 atLaunch
  rw [k0_part9_eq_skeleton]; unfold k0_part9_skel
  simp only [semSignalWord, semWaitWord, Prog.lift, Prog.bind_op, Prog.bind_ret, Prog.pure_eq_ret, wp_deviceId]
  unfold owesE ptsAny
  iintro ⟨#Hp, ⟨%W, HO⟩, Hs, ⟨%fd, Hd⟩, T, T', A0, C0, A1, C1, Hk⟩
  ihave Hs := (pts_slA_slF c 3 (outF m c)) $$ Hs
  iapply (send_remote m K c _ (pz c) 20 24 rfl (dev12_eq c) rfl _ _ rfl rfl (slF c 3) (slF c 3) _ fd 11 _ rfl rfl rfl (srcF_pay m c 3) (sendF_pay m c 3 fd)) $$ [$]
  iintro ⟨C, HO⟩
  iapply (wait_dma m K c 15 12 (mayWait_of_table c 15 12 (by decide)) (by rfl) (by rfl) W) $$ [$]
  iintro ⟨HO, A0, Hr⟩
  ihave Hr := (show pay m c 15 ⊢ pts (slD (px c) 0) c _ from .rfl) $$ Hr
  iapply (wait_dma m K c 16 12 (mayWait_of_table c 16 12 (by decide)) (by rfl) (by rfl) _) $$ [$]
  iintro ⟨HO, A1, Hr'⟩
  ihave Hr' := (show pay m c 16 ⊢ pts (slD (px c) 1) c _ from .rfl) $$ Hr'
  rw [wp_ret]; imodintro
  iapply Hk; iframe
  iexists _; iexact HO

end Cert.Kernel.AG

end
-- ==== Proof.W.Part1011.lean ====
import proofs.«900690_g7700000000000691_dist_ag_v7x_xyz2x4x4_x_m512_n512_bf16_1_alg».proof.Proof.W.Waits

noncomputable section

namespace Cert.Kernel.AG

open Cert.Kernel.Gen
open Idealize.ShloMosaic Idealize.ShloMosaic.TcCoe Idealize.ShloMosaic.Rounds
open Idealize.SL Idealize.SL.BI Idealize.SL.BI.BIBase Idealize.SL.ProofMode Idealize.SL.Sem

variable {F : FTy → Type} [FloatOps F]

variable (m : (ℓ : Loc nD τ sig) → Buf (Elt F) ℓ) (K : Dev nD × Fin 25 → ℕ) (c : Dev nD)

local notation "𝕄" => MT nD τ sig Unit (Elt F) ℕ UU ℕ

local notation "WP" => wp frame (wpE (defs₀ (F := F)) 𝒱₀ c none) Set.univ

/-- A device that owes nothing may wait on any of its cells; the wait hands over the cell's payload `P`. -/
private theorem wait_done (j : Fin 25) (P : sProp 𝕄) (hP : pay m c j = P := by rfl) {q : DmaSem sig} (hq : csem j = .dma q := by rfl)
    {sp sp' : Space} {s s' : Shape} {e e' : EltTy} {κ' : Kind}
    {src : Memref sig .tc sp' s' e'} {dst : Memref sig κ' sp s e}
    {hsrc : src.view.WordExact} {hdst : dst.view.WordExact} (hamt : dst.view.dmaCredit = amt j := by rfl)
    {α : Type} {Q : α → sProp 𝕄} {k : PUnit → Prog (TpuEff nD τ sig (Elt F) Λ₀ .tc) α} :
    iprop(pers m K ∗ owesE c 12 ∗ pos0 c j ∗ crd c j)
      ⊢ iprop(((owesE c 12 ∗ pos1 c j ∗ P) -∗ WP (k ⟨⟩) Q) -∗ WP (.op (.waitDma2 q src dst hsrc hdst) k) Q) := by
  subst hP; unfold owesE
  iintro ⟨#Hp, ⟨%W, HO⟩, A, C⟩ Hk
  iapply (wait_dma m K c j 12 (by rw [show Oat c 12 = 0 from rfl, MayWait_zero]; iintro -; iempintro) hq hamt W) $$ [$]
  iintro ⟨HO, H⟩
  iapply Hk
  iframe H
  iexists _; iexact HO

/-- Five waits of a device that owes nothing. -/
theorem part10_proof (v2 v5 v13 : BitVec 32) (Q : PUnit → sProp 𝕄) :
    iprop(pers m K
        ∗ owesE c 12
        ∗ pos0 c 21
        ∗ crd c 21
        ∗ pos0 c 5
        ∗ crd c 5
        ∗ pos0 c 17
        ∗ crd c 17
        ∗ pos0 c 22
        ∗ crd c 22
        ∗ pos0 c 6
        ∗ crd c 6
        ∗ (iprop(owesE c 12
        ∗ pos1 c 21
        ∗ pts (slF (pz c) 0) c (outF m c)
        ∗ pos1 c 5
        ∗ pts (slA c 0) c (outF m c)
        ∗ pos1 c 17
        ∗ pts (slF c 0) c (outF m c)
        ∗ pos1 c 22
        ∗ pts (slF (pz c) 1) c (outF m c)
        ∗ pos1 c 6
        ∗ pts (slA c 1) c (outF m c)) -∗ Q ⟨⟩))
      ⊢ WP (pt10 c v2 v5 v13) Q := by
  unfold pt10 atLaunch
  rw [k0_part10_eq_skeleton]; unfold k0_part10_skel
  simp only [Prog.lift, Prog.bind_op, Prog.bind_ret, Prog.pure_eq_ret]
  iintro ⟨#Hp, HO, A1, C1, A2, C2, A3, C3, A4, C4, A5, C5, Hk⟩
  iapply (wait_done m K c 21 (pts (slF (pz c) 0) c _)) $$ [$]
  iintro ⟨HO, A1, P1⟩
  iapply (wait_done m K c 5 (pts (slA c 0) c _)) $$ [$]
  iintro ⟨HO, A2, P2⟩
  iapply (wait_done m K c 17 (pts (slF c 0) c _)) $$ [$]
  iintro ⟨HO, A3, P3⟩
  iapply (wait_done m K c 22 (pts (slF (pz c) 1) c _)) $$ [$]
  iintro ⟨HO, A4, P4⟩
  iapply (wait_done m K c 6 (pts (slA c 1) c _)) $$ [$]
  iintro ⟨HO, A5, P5⟩
  rw [wp_ret]; imodintro
  iapply Hk; iframe

/-- The remaining five such waits. -/
theorem part11_proof (v2 v5 v13 : BitVec 32) (Q : PUnit → sProp 𝕄) :
    iprop(pers m K
        ∗ owesE c 12
        ∗ pos0 c 18
        ∗ crd c 18
        ∗ pos0 c 23
        ∗ crd c 23
        ∗ pos0 c 7
        ∗ crd c 7
        ∗ pos0 c 19
        ∗ crd c 19
        ∗ pos0 c 24
        ∗ crd c 24
        ∗ (iprop(owesE c 12
        ∗ pos1 c 18
        ∗ pts (slF c 1) c (outF m c)
        ∗ pos1 c 23
        ∗ pts (slF (pz c) 2) c (outF m c)
        ∗ pos1 c 7
        ∗ pts (slA c 2) c (outF m c)
        ∗ pos1 c 19
        ∗ pts (slF c 2) c (outF m c)
        ∗ pos1 c 24
        ∗ pts (slF (pz c) 3) c (outF m c)) -∗ Q ⟨⟩))
      ⊢ WP (pt11 c v2 v5 v13) Q := by
  unfold pt11 atLaunch
  rw [k0_part11_eq_skeleton]; unfold k0_part11_skel
  simp only [Prog.lift, Prog.bind_op, Prog.bind_ret, Prog.pure_eq_ret]
  iintro ⟨#Hp, HO, A1, C1, A2, C2, A3, C3, A4, C4, A5, C5, Hk⟩
  iapply (wait_done m K c 18 (pts (slF c 1) c _)) $$ [$]
  iintro ⟨HO, A1, P1⟩
  iapply (wait_done m K c 23 (pts (slF (pz c) 2) c _)) $$ [$]
  iintro ⟨HO, A2, P2⟩
  iapply (wait_done m K c 7 (pts (slA c 2) c _)) $$ [$]
  iintro ⟨HO, A3, P3⟩
  iapply (wait_done m K c 19 (pts (slF c 2) c _)) $$ [$]
  iintro ⟨HO, A4, P4⟩
  iapply (wait_done m K c 24 (pts (slF (pz c) 3) c _)) $$ [$]
  iintro ⟨HO, A5, P5⟩
  rw [wp_ret]; imodintro
  iapply Hk; iframe

end Cert.Kernel.AG

end
-- ==== Proof.W.Finish.lean ====
import proofs.«900690_g7700000000000691_dist_ag_v7x_xyz2x4x4_x_m512_n512_bf16_1_alg».proof.Proof.W.Waits

noncomputable section

namespace Cert.Kernel.AG

open Idealize.ShloMosaic
open Idealize.SL.BI
open Idealize.SL.BI.BIBase
open Idealize.ShloMosaic.Rounds

variable {F : FTy → Type} [FloatOps F]

variable (m : (ℓ : Loc nD τ sig) → Buf (Elt F) ℓ)

local notation "𝕄" => MT nD τ sig Unit (Elt F) ℕ UU ℕ

-- Past its one round, with no duty in any later round, a cell closes and gives its counter back at zero.
theorem close_cell (K : Dev nD × Fin 25 → ℕ) (c : Dev nD) (j : Fin 25) :
    iprop(records m K ∗ pos1 c j) ⊢ |={Set.univ}=> semVal (kcell (c, j)) 0 := by
  unfold records
  iintro ⟨⟨Hinv, -⟩, Hpos⟩
  ihave Hc := (inv_at m K (c, j)) $$ Hinv
  iapply (Rounds.cell_close ER (sched m) (Set.mem_univ (K (c, j))) (fun h => h) (R := 1) (duties_later m (kcell (c, j))))
  isplitl [Hc] <;> iassumption

private theorem bigSepL_cons' (i : Fin 25) (l : List (Fin 25)) (Φ : Fin 25 → sProp 𝕄) :
    bigSepL (i :: l) Φ = iprop(Φ i ∗ bigSepL l Φ) := bigSepL_cons _ _ _

theorem close_cells (K : Dev nD × Fin 25 → ℕ) (c : Dev nD) (l : List (Fin 25)) :
    iprop(records m K ∗ bigSepL l (fun j => pos1 c j))
      ⊢ |={Set.univ}=> bigSepL l (fun j => semVal (kcell (c, j)) 0) := by
  induction l with
  | nil =>
    rw [bigSepL_nil, bigSepL_nil]
    iintro ⟨-, -⟩
    imodintro
    iempintro
  | cons i l ih =>
    rw [bigSepL_cons', bigSepL_cons']
    iintro ⟨#Hrec, Hi, Hl⟩
    iapply fupd_sep
    isplitl [Hi]
    · iapply (close_cell m K c i); iframe Hrec Hi
    · iapply ih; iframe Hrec Hl

private abbrev ownCells : List (Fin 25) := [1, 2, 3, 4, 5, 6, 7, 8, 9, 10, 11, 12, 13, 14, 15, 16, 17, 18, 19, 20, 21, 22, 23, 24]

theorem ownZero_eq (c : Dev nD) :
    ownZero (F := F) c = bigSepL ownCells (fun j : Fin 25 => semVal (kcell (c, j)) 0) := by
  unfold ownZero
  exact bigSep_eq_bigSepL_of_eq _ (by decide) (by decide) _

theorem finish_cells (K : Dev nD × Fin 25 → ℕ) (c : Dev nD) :
    iprop(pers m K ∗ pos1 c 1 ∗ pos1 c 2 ∗ pos1 c 3 ∗ pos1 c 4 ∗ pos1 c 5 ∗ pos1 c 6 ∗ pos1 c 7 ∗ pos1 c 8 ∗ pos1 c 9 ∗ pos1 c 10 ∗ pos1 c 11 ∗ pos1 c 12 ∗ pos1 c 13 ∗ pos1 c 14 ∗ pos1 c 15 ∗ pos1 c 16 ∗ pos1 c 17 ∗ pos1 c 18 ∗ pos1 c 19 ∗ pos1 c 20 ∗ pos1 c 21 ∗ pos1 c 22 ∗ pos1 c 23 ∗ pos1 c 24)
      ⊢ |={Set.univ}=> ownZero c := by
  rw [ownZero_eq]
  show iprop(pers m K ∗ bigSepL ownCells (fun j => pos1 c j)) ⊢ _
  iintro ⟨⟨Hrec, -⟩, Hpos⟩
  iapply (close_cells m K c ownCells)
  iframe Hrec Hpos

end Cert.Kernel.AG

end
-- ==== Proof.W.Body.lean ====
import proofs.«900690_g7700000000000691_dist_ag_v7x_xyz2x4x4_x_m512_n512_bf16_1_alg».proof.Proof.W.Part12
import proofs.«900690_g7700000000000691_dist_ag_v7x_xyz2x4x4_x_m512_n512_bf16_1_alg».proof.Proof.W.Part34
import proofs.«900690_g7700000000000691_dist_ag_v7x_xyz2x4x4_x_m512_n512_bf16_1_alg».proof.Proof.W.Part5
import proofs.«900690_g7700000000000691_dist_ag_v7x_xyz2x4x4_x_m512_n512_bf16_1_alg».proof.Proof.W.Part6
import proofs.«900690_g7700000000000691_dist_ag_v7x_xyz2x4x4_x_m512_n512_bf16_1_alg».proof.Proof.W.Part789
import proofs.«900690_g7700000000000691_dist_ag_v7x_xyz2x4x4_x_m512_n512_bf16_1_alg».proof.Proof.W.Part1011
import proofs.«900690_g7700000000000691_dist_ag_v7x_xyz2x4x4_x_m512_n512_bf16_1_alg».proof.Proof.W.Finish

namespace Cert.Kernel.AG

open Cert.Kernel Cert.Kernel.Gen Idealize.ShloMosaic Idealize.ShloMosaic.TcCoe Idealize.SL Idealize.SL.BI
  Idealize.SL.BI.BIBase Idealize.SL.ProofMode Idealize.SL.Sem Idealize.ShloMosaic.Rounds
open Idealize.ShloMosaic.Pipeline (Dat)

variable {F : FTy → Type} [FloatOps F] (m : (ℓ : Loc nD τ sig) → Buf (Elt F) ℓ) (ρ : Dev nD → PrngReg)

local notation "𝕄" => MT nD τ sig Unit (Elt F) ℕ UU ℕ

-- A piece at known contents is in particular a piece at some contents, so it can be cancelled against one.
@[ipm_backtrack]
instance {sp : Space} {s : Shape} {e : EltTy} (M : Memref sig .tc sp s e) (c : Dev nD) (f : Buf (Elt F) (M.view.loc (c : Thread nD τ))) :
    Frame false (no_index (pts M c f)) (ptsAny M c : sProp 𝕄) iprop(emp) where
  frame := by unfold ptsAny; iintro ⟨H, -⟩; iexists f; iexact H

theorem mw12 (c : Dev nD) (j : Fin 25) : (levAts L lv : sProp 𝕄) ⊢ MayWait (c : Thread nD τ) (csem j) () (Oat c 12) := by
  rw [Oat_12, MayWait_zero]; iintro -; iempintro

section Chain
variable (K : Dev nD × Fin 25 → ℕ) (c : Dev nD)

set_option maxHeartbeats 400000 in
-- The eleven parts run in order, each on the pieces and tokens it needs; four last waits return the sent pieces; the 17 row bands rebuild the result.
theorem sound_body (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold bodyPre ghost posns payToks creds
  simp only [bigSep_univ_eq_bigSepL (I := Fin 25) [0, 1, 2, 3, 4, 5, 6, 7, 8, 9, 10, 11, 12, 13, 14, 15, 16, 17, 18, 19, 20, 21, 22, 23, 24] (by decide) (by decide),
    bigSep_eq_bigSepL_of_eq (S := remoteJ) [0, 1, 9, 10, 11, 12, 15, 16, 21, 22, 23, 24] (by decide) (by decide), bigSepL,
    show ∀ a b : sProp 𝕄, BI.sep a b = iprop(a ∗ b) from fun _ _ => rfl]
  iintro ⟨⟨⟨⟨#Hrec, ⟨Hp0, Hp1, Hp2, Hp3, Hp4, Hp5, Hp6, Hp7, Hp8, Hp9, Hp10, Hp11, Hp12, Hp13, Hp14, Hp15, Hp16, Hp17, Hp18, Hp19, Hp20, Hp21, Hp22, Hp23, Hp24⟩,
      ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24⟩⟩,
      ⟨Hc0, Hc1, Hc9, Hc10, Hc11, Hc12, Hc15, Hc16, Hc21, Hc22, Hc23, Hc24⟩, #Hlev, Hhbm, Hxv⟩, Ho, ⟨%d0, %g0, %hg0, Hout⟩⟩, Hk⟩
  ihave #Hp : pers m K $$ []
  · isplitr; · iexact Hrec
    iexact Hlev
  unfold Dat.owesAt Pipeline.owesWithin
  icases Ho with ⟨%W, %hW, HO⟩
  rw [show (dats m ρ 0 c).owed t₀.castSucc = Oat c 0 from rfl]
  ihave HO : owesE c 0 $$ [HO]
  · unfold owesE; iexists W; iexact HO

  ihave Hps := (out_split c g0) $$ Hout
  unfold outPieces
  icases Hps with ⟨HA0, HA1, HA2, HA3, HD0, HD1, HKp, HrA0, HrA1, HrA2, HrA3, HrD0, HrD1, HrK0, HrK1, HrK2, HrK3⟩
  unfold xvAny
  icases Hxv with ⟨%fx, Hxv⟩
  ihave Hx3 := (xv_split c fx) $$ Hxv
  icases Hx3 with ⟨HxA, HxB, HxC⟩
  unfold hbmPts
  ihave Hh3 := (hbm_split c (xin m c)) $$ Hhbm
  icases Hh3 with ⟨HhA, HhB, HhC⟩
  unfold theBody atLaunch
  rw [cc0_body_eq_skeleton]
  unfold cc0_body_skel
  simp only [wp_bind]

  iapply (part1_proof m K c  _)
  iframe Hp HO Ht0 HrA0 HrA1 HrA2 HrA3 HrD0 HrD1
  iintro %v2 %v5 %v8 %v10 %v13 %v14 %v16 %v18 %v19 %v31 %v32 HO

  iapply (part2_proof m K c _ _ _ _ _ _ _ _)
  iframe Hp HO Ht1 Ht2 Ht3 Ht4 HhA HhB HhC Hp0 Hc0 Hp2 HrK0 HrK1 HrK2 HrK3 HxA HxB HxC HA0
  iintro ⟨HO, Hc3, Hc4, Hq0, Hbar, Hq2, HxA, HhA, HA0⟩
  unfold barPay
  icases Hbar with ⟨HlA0, HlA1, HlA2, HlA3, HlD0, HlD1⟩

  iapply (part3_proof m K c _ _ _ _ _ _)
  iframe Hp HO HxA HA0 HlA0 Ht5 Ht9 HlA1 Ht6 Ht10 HA1 HA2
  iintro ⟨HO, HxA, Hc5, Hc6, HA2⟩

  iapply (part4_proof m K c _ _ _ _ _ _)
  iframe Hp HO HxA HA2 HlA2 Ht7 Ht11 HlA3 Ht8 Ht12 Hp3 Hc3 HA3
  iintro ⟨HO, HxA, Hc7, Hc8, Hq3, HxB, HhB⟩

  iapply (part5_proof m K c _ _ _ _ _)
  iframe Hp HO HxB HlD0 Ht13 Ht15 HlD1 Ht14 Ht16 HD0 HD1
  iintro ⟨HO, HxB, Hc13, Hc14⟩

  iapply (part6_proof m K c _ _ _ _ _ _ _ _ _ _)
  iframe Hp HO Hp4 Hc4 Hp1 Hc1 Hp9 Hc9 Ht17 Ht21 HKp
  iintro %w192 ⟨HO, Hq4, HxC, HhC, HKp, Hq1, HlF1, HlF2, HlF3, Hq9, Hc17⟩

  iapply (part7_proof m K c _ _ _ _ _ _ _ _ _)
  iframe Hp HO Hp10 Hc10 HlF1 Ht18 Ht22 Hp11 Hc11
  iintro %w226 %w64 ⟨HO, Hq10, Hc18, Hq11, HrA2⟩

  iapply (part8_proof m K c _ _ _ _ _ _ _ _ _ _)
  iframe Hp HO HrA2 HlF2 Ht19 Ht23 Hp12 Hc12
  iintro ⟨HO, Hc19, Hq12, HrA3⟩

  iapply (part9_proof m K c _ _ _ _ _ _)
  iframe Hp HO HrA3 HlF3 Ht20 Ht24 Hp15 Hc15 Hp16 Hc16
  iintro ⟨HO, Hc20, Hq15, HrD0, Hq16, HrD1⟩

  iapply (part10_proof m K c _ _ _ _)
  iframe Hp HO Hp21 Hc21 Hp5 Hc5 Hp17 Hc17 Hp22 Hc22 Hp6 Hc6
  iintro ⟨HO, Hq21, HrK0, Hq5, HA0, Hq17, HF0, Hq22, HrK1, Hq6, HA1⟩

  iapply (part11_proof m K c _ _ _ _)
  iframe Hp HO Hp18 Hc18 Hp23 Hc23 Hp7 Hc7 Hp19 Hc19 Hp24 Hc24
  iintro ⟨HO, Hq18, HF1, Hq23, HrK2, Hq7, HA2, Hq19, HF2, Hq24, HrK3⟩

  simp only [Prog.lift, Prog.bind_op, Prog.bind_ret, Prog.pure_eq_ret]
  unfold owesE
  icases HO with ⟨%W1, HO⟩
  iapply (wait_dma m K c 8 12 (mw12 c 8) (hq := by rfl) (hamt := by rfl) _) $$ [$]
  rw [show pay m c 8 = pts (slA c 3) c (outF m c) from rfl, wp_ret]
  iintro ⟨HO, Hq8, HA3⟩; imodintro
  iapply (wait_dma m K c 20 12 (mw12 c 20) (hq := by rfl) (hamt := by rfl) _) $$ [$]
  rw [show pay m c 20 = pts (slF c 3) c (outF m c) from rfl, wp_ret]
  iintro ⟨HO, Hq20, HF3⟩; imodintro
  iapply (wait_dma m K c 13 12 (mw12 c 13) (hq := by rfl) (hamt := by rfl) _) $$ [$]
  rw [show pay m c 13 = pts (slD c 0) c (outF m c) from rfl, wp_ret]
  iintro ⟨HO, Hq13, HD0⟩; imodintro
  iapply (wait_dma m K c 14 12 (mw12 c 14) (hq := by rfl) (hamt := by rfl) _) $$ [$]
  rw [show pay m c 14 = pts (slD c 1) c (outF m c) from rfl, wp_ret]
  iintro ⟨HO, Hq14, HD1⟩; imodintro

  imod (finish_cells m K c) $$ [Hq1 Hq2 Hq3 Hq4 Hq5 Hq6 Hq7 Hq8 Hq9 Hq10 Hq11 Hq12 Hq13 Hq14 Hq15 Hq16 Hq17 Hq18 Hq19 Hq20 Hq21 Hq22 Hq23 Hq24] with Hz
  · iframe Hp Hq1 Hq2 Hq3 Hq4 Hq5 Hq6 Hq7 Hq8 Hq9 Hq10 Hq11 Hq12 Hq13 Hq14 Hq15 Hq16 Hq17 Hq18 Hq19 Hq20 Hq21 Hq22 Hq23 Hq24
  rw [wp_ret]; imodintro
  ihave Hh := (hbm_join c (xin m c)) $$ [$]
  ihave Hx := (xv_join c (xin m c)) $$ [$]
  iapply Hk
  unfold bodyPost Φ₁ hbmPts xvAny Dat.owesAt Pipeline.owesWithin
  rw [show (dats m ρ 0 c).owed t₀.succ = 0 from rfl]
  iframe Hh Hz
  isplitl [Hx]; · iexists _; iexact Hx
  isplitl [HO]
  · iexists _; isplitr; rotate_left
    · iexact HO
    ipureintro; exact fun _ _ => Or.inl trivial

  iexists (outF m c)
  isplitr; · (ipureintro; rfl)
  iapply (out_join c (outF m c))
  unfold outPieces
  ihave HF0 := (pts_slF_slA c 0 _) $$ HF0
  ihave HF1 := (pts_slF_slA c 1 _) $$ HF1
  ihave HF2 := (pts_slF_slA c 2 _) $$ HF2
  ihave HF3 := (pts_slF_slA c 3 _) $$ HF3
  iframe

end Chain

end Cert.Kernel.AG
-- ==== Proof.W.Launch.lean ====
import proofs.«900690_g7700000000000691_dist_ag_v7x_xyz2x4x4_x_m512_n512_bf16_1_alg».proof.Proof.Gen.Kernel.Points
import proofs.«900690_g7700000000000691_dist_ag_v7x_xyz2x4x4_x_m512_n512_bf16_1_alg».proof.Proof.W.Credit

noncomputable section

namespace Cert.Kernel.AG

open Cert.Kernel.Gen
open Idealize.ShloMosaic Idealize.ShloMosaic.TcCoe Idealize.ShloMosaic.Rounds
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ UU ℕ

namespace Launch

variable (m : (ℓ : Loc nD τ sig) → Buf (Elt F) ℓ) (ρ : Dev nD → PrngReg)

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def SoundBody : Prop :=
  ∀ (K : Dev nD × Fin 25 → ℕ) (c : Dev nD) (Kt : PUnit → sProp 𝕄),
    iprop(bodyPre m ρ K c ∗ (bodyPost m ρ c -∗ Kt ⟨⟩))
      ⊢ wp frame (wpE (defs₀ (F := F)) 𝒱₀ c none) Set.univ (theBody (F := F)) Kt

/-- The launch theorem's body obligation on device `c`, from the body lemma. -/
theorem body_obligation (hsb : SoundBody m ρ) (c : Dev nD) :
    BodyObligation (dats (F := F) m ρ 0 c) (defs₀ (F := F)) 𝒱₀ () Set.univ := fun t => by
  rw [fin_N t]
  rw [bigSep_W0, bigSep_W0]
  simp only [owns_whole_eq]
  show iprop(Φ₀ m c ∗ (dats m ρ 0 c).owesAt () t₀.castSucc ∗ (∃ d, stg c cc0_stg0_0 ((dats m ρ 0 c).before (0 : Fin 1) t₀ d)))
    ⊢ wp frame (wpE (defs₀ (F := F)) 𝒱₀ c none) Set.univ (theBody (F := F)) (fun _ => bodyPost m ρ c)
  unfold Φ₀ start
  iintro ⟨⟨⟨⟨%K, Hg⟩, Hcr, Hlev, Hh⟩, Hx⟩, Ho, Hs⟩
  iapply (hsb K c fun _ => bodyPost m ρ c)
  unfold bodyPre
  iframe Hg Hcr Hlev Hh Hx Ho Hs
  iintro H; iexact H

abbrev osem : Fin 24 → SemLoc sig := fun i => csem ⟨i.val + 1, Nat.succ_lt_succ i.isLt⟩

theorem ownSemFacts : Pipeline.OwnSemFacts cfg0.spec osem := by decide

theorem share_eq (c : Dev nD) (w : Fin cfg0.W) : (dats m ρ 0 c).share w = fullShare := by
  unfold Dat.share; split <;> rfl

theorem kcell_injective : Function.Injective (kcell : Dev nD × Fin 25 → GSem nD τ sig) :=
  fun _ _ h => Prod.ext_iff.mpr (kcell_eq_iff.mp h)

def ringCells : Finset (GSem nD τ sig) := Finset.univ.map ⟨kcell, kcell_injective⟩
def ringToks : Finset (GSem nD τ sig × ℕ × Unit) :=
  Finset.univ.map ⟨fun ck : Dev nD × Fin 25 => (kcell ck, 0, ()), fun _ _ h => kcell_injective (congrArg Prod.fst h)⟩

def u₀ : UU := (initOf (Pipeline.cells cfgs cellOf_inj) (Pipeline.launchToks cfgs cellOf_inj), initOf ringCells ringToks)

def toks (c : Dev nD) : sProp 𝕄 := bigSep Finset.univ fun j : Fin 25 => dutyTok ER (kcell (c, j)) 0 ()

def G (c : Dev nD) : sProp 𝕄 :=
  iprop((bigSep Finset.univ fun j : Fin 25 => roundState ER (sched m) (kcell (c, j)) 0)
    ∗ (bigSep Finset.univ fun j : Fin 25 => iprop(atPos ER (kcell (c, j)) 0 ∅ 0 ∗ reached ER (kcell (c, j)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 25 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m) ringCells ringToks) $$ HX with ⟨Hst, Hr, Hat, Htok⟩
  imodintro
  unfold G; simp only [hX, hT, bigSep_sep']
  iframe

omit [FloatOps F] in
theorem bigSep_fin25 (Φ : Fin 25 → sProp 𝕄) :
    bigSep Finset.univ Φ = iprop(Φ 0 ∗ bigSep Finset.univ fun i : Fin 24 => Φ i.succ) := by
  rw [Fin.univ_succ, Finset.cons_eq_insert, BI.bigSep_insert (by simp), BI.bigSep_map]; rfl

omit [FloatOps F] in

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in

theorem sems0_eq (c : Dev nD) :
    iprop((Pipeline.ownSems0 osem c : sProp 𝕄) ∗ unscopedSems0 c)
      ⊢ (bigSep Finset.univ fun j : Fin 25 => semVal (kcell (c, j)) 0 : sProp 𝕄) := by
  rw [unscopedSems0_eq, bigSep_fin25]
  exact Laws.sep_comm.1

theorem core_alloc (c : Dev nD) :
    iprop((Pipeline.ownSems0 osem c : sProp 𝕄) ∗ unscopedSems0 c ∗ G m c)
      ⊢ |={Set.univ}=> iprop((bigSep Finset.univ fun j : Fin 25 => iprop(∃ κ : ℕ, cellInv ER (sched m) κ (kcell (c, j))))
          ∗ (bigSep Finset.univ fun j : Fin 25 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [$]
  imod (show iprop((bigSep Finset.univ fun j : Fin 25 => semVal (kcell (c, j)) 0) ∗ bigSep Finset.univ fun j : Fin 25 => roundState ER (sched m) (kcell (c, j)) 0)
      ⊢ (|={Set.univ}=> bigSep Finset.univ fun j : Fin 25 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [$] with Hinv
  imodintro
  iframe Hinv Hat Htok

def prE (j : Fin 25) : Dev nD ≃ Dev nD := ⟨fun c => pr c j, fun c => pr c j, fun c => pr_pr c j, fun c => pr_pr c j⟩

omit [FloatOps F] in

/-- Cell by cell, each device's token goes to the device that pays that cell: paying is an involution of the devices. -/
theorem toks_around : (bigSep Finset.univ fun c : Dev nD => (toks c : sProp 𝕄)) ⊢ bigSep Finset.univ fun c : Dev nD => payToks c := by
  unfold toks payToks
  rw [BI.bigSep_univ_comm (fun (c : Dev nD) (j : Fin 25) => (dutyTok ER (kcell (c, j)) 0 () : sProp 𝕄)),
    BI.bigSep_univ_comm (fun (c : Dev nD) (j : Fin 25) => (dutyTok ER (kcell (pr c j, j)) 0 () : sProp 𝕄))]
  exact bigSep_mono fun j _ => Entails.of_eq (bigSep_univ_equiv (prE j) (fun c : Dev nD => (dutyTok ER (kcell (c, j)) 0 () : sProp 𝕄)))

theorem ghost_intro (K : Dev nD × Fin 25 → ℕ) (c : Dev nD) : iprop(records m K ∗ (posns c ∗ payToks c)) ⊢ G' m c := by
  unfold G' ghost
  iintro ⟨#HR, Hp, Ht⟩
  iexists K
  iframe HR Hp Ht

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (Laws.sep_mono_left (BI.bigSep_of_persistent S R)).trans (by rw [← bigSep_sep']; exact bigSep_mono h)

theorem regroup :
    (bigSep Finset.univ fun c : Dev nD => iprop((bigSep Finset.univ fun j : Fin 25 => iprop(∃ κ : ℕ, cellInv ER (sched m) κ (kcell (c, j))))
          ∗ (bigSep Finset.univ fun j : Fin 25 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun ck : Dev nD × Fin 25 => iprop(∃ κ : ℕ, cellInv ER (sched m) κ (kcell ck))),
    bigSep_congr (s := Finset.univ) (fun (c : Dev nD) _ => bigSep_sep' Finset.univ (fun j : Fin 25 => (atPos ER (kcell (c, j)) 0 ∅ 0 : sProp 𝕄)) (fun j => reached ER (kcell (c, j)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; iframe HI HR
  · iapply (Entails.of_eq (bigSep_sep' Finset.univ (fun c : Dev nD => (posns c : sProp 𝕄)) payToks).symm)
    isplitl [Hat]; · iexact Hat
    iexact Htk

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hh, Hlev, Hcr, -, HG⟩
  ihave Hc := (creds_intro (F := F) c) $$ Hcr
  imodintro
  unfold start G' hbmPts xin
  iframe HG Hc Hlev Hh

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ xvAny
  iintro ⟨Hs, -, Hr⟩
  iframe Hs Hr

omit [FloatOps F] in

theorem ownSems0_eq (c : Dev nD) :
    (Pipeline.ownSems0 osem c : sProp 𝕄) = ownZero c := by
  unfold ownZero Pipeline.ownSems0
  rw [show (Finset.univ.erase (0 : Fin 25)) = Finset.univ.map (Fin.succEmb 24) from by decide, BI.bigSep_map]
  rfl

theorem phi1_exit (c : Dev nD) :
    (dats m ρ 0 c).Φ (Fin.last cfg0.N) ⊢ iprop(hbmPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ xvAny
  iintro ⟨Hh, Hx, Hz⟩
  iframe Hh Hz Hx

theorem waits (c : Dev nD) : (levAts L lv : sProp 𝕄) ⊢ Pipeline.cellsWaits cfgs (dats m ρ) () 0 c :=
  Pipeline.cellsWaits_intro cfgs (dats m ρ) () 0 c fun w s t => by
    have hs : ((cfgs 0).win w).sem s = dS 0 := by fin_cases w; fin_cases s; rfl
    rw [hs]
    exact mayWait_stage c _ (by
      rcases t with ⟨_ | _, ht⟩
      · exact Or.inl rfl
      · exact Or.inr rfl)

/-- The result's one block is the whole array, so the array ends at the contents the body produced. -/
theorem final_out (c : Dev nD) : (dats m ρ 0 c).arrAt (0 : Fin 1) cfg0.N = outF m c := by
  have h := (dats m ρ 0 c).arrAt_succ (0 : Fin 1) t₀
  rw [flush0_0 t₀, if_pos rfl] at h
  have hN : cfg0.N = t₀.val + 1 := cfg0_N
  rw [hN, h]
  have hv : ∀ f : (main_v1 : Ref sig .tc).ty.Contents (Elt F), ((cfg0.win 0).blk t₀).view.read (Elt F) f = f := fun f =>
    Memref.read_access_unit_zero (Elt F) main_v1 (funext fun a => Nat.zero_mul _) _ f
  exact ((hv _).symm.trans (View.read_write_univ _ _)).trans rfl

/-- Given the body lemma, every fair run ends with each device's result at `outF` and its block of `x` unchanged. -/
theorem kernel_run_of (hsb : SoundBody m ρ) :
    θ_run (defs (F := F)) (onTc (τ := τ) (main (F := F))) ⟨m, fun _ => 0, ρ⟩ (fun r => ∀ c : Dev nD,
      r.2.mem ((c.tc : Thread nD τ).loc main_v1) = outF m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hsb) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      iframe HP HG)
    (hglob := ((bigSep_mono fun c _ => core_alloc m c).trans (bigSep_fupd _ _)).trans (BI.fupd_mono (regroup m)))
    (hA := fun _ _ => rfl) (hpf := fun _ k => k.elim0)
    (X := start m) (Y := hbmPts m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold hbmPts xin
      iintro ⟨Hx, -, HSI⟩
      icombine HSI Hx gives %hx
      imodintro
      isplitr; · ipureintro; exact Buf.eq_of_forall_mem_univ hx
      iexact HSI)
    (hQ := fun s h c => ⟨((h c).1 0).trans (final_out m ρ c), (h c).2.2⟩)

end Launch

end Cert.Kernel.AG

end
-- ==== Proof.lean ====
/- An all-gather over the x axis of a 2 × 4 × 4 mesh, narrowed to bf16: every device ends with the whole array, which over the extended reals is the reference's result. -/
import proofs.«900690_g7700000000000691_dist_ag_v7x_xyz2x4x4_x_m512_n512_bf16_1_alg».proof.Defs
import proofs.«900690_g7700000000000691_dist_ag_v7x_xyz2x4x4_x_m512_n512_bf16_1_alg».proof.Proof.Gen.ReferenceIdeal.Run
import proofs.«900690_g7700000000000691_dist_ag_v7x_xyz2x4x4_x_m512_n512_bf16_1_alg».proof.Proof.Gen.Pre_finite_inputs_Kernel
import proofs.«900690_g7700000000000691_dist_ag_v7x_xyz2x4x4_x_m512_n512_bf16_1_alg».proof.Proof.Gen.Pre_finite_inputs_ReferenceIdeal
import proofs.«900690_g7700000000000691_dist_ag_v7x_xyz2x4x4_x_m512_n512_bf16_1_alg».proof.Proof.Value
import proofs.«900690_g7700000000000691_dist_ag_v7x_xyz2x4x4_x_m512_n512_bf16_1_alg».proof.Proof.Body
import proofs.«900690_g7700000000000691_dist_ag_v7x_xyz2x4x4_x_m512_n512_bf16_1_alg».proof.Proof.Launch
import proofs.«900690_g7700000000000691_dist_ag_v7x_xyz2x4x4_x_m512_n512_bf16_1_alg».proof.Proof.W.Body
import proofs.«900690_g7700000000000691_dist_ag_v7x_xyz2x4x4_x_m512_n512_bf16_1_alg».proof.Proof.W.Launch

noncomputable section

namespace Cert.Proof

open Idealize.ShloMosaic Idealize.SL.Sem

theorem frame_Kernel : Cert.frame_Kernel :=
  fun m g _ => (θ_run _ _ _).mono (fun _ h c => (h c).2) (Cert.Kernel.AG.Launch.kernel_run_of (F := Bits) m g (Cert.Kernel.AG.sound_body m g))

theorem frame_KernelIdeal : Cert.frame_KernelIdeal :=
  fun m g _ => (θ_run _ _ _).mono (fun _ h c => (h c).2) (Cert.KernelIdeal.AG.Launch.kernel_run_of (F := Ideal) m g (Cert.KernelIdeal.AG.sound_body m g))

theorem frame_ReferenceIdeal : Cert.frame_ReferenceIdeal :=
  fun m g _ => (θ_run Cert.ReferenceIdeal.defs _ _).mono (fun _ h c => (h c).2) (Cert.ReferenceIdeal.Value.run (F := Ideal) m g)

/-- Each device holding its block of the reference's array `X`, every device's result and the reference's result are both `X`. -/
theorem algebraic : Cert.algebraic_KernelIdeal_ReferenceIdeal := by
  intro m g m' g' _ hagree
  refine ⟨m' (((0 : Dev Cert.ReferenceIdeal.nD).tc : Thread Cert.ReferenceIdeal.nD Cert.ReferenceIdeal.τ).loc Cert.ReferenceIdeal.main_arg0), ?_, ?_⟩
  · exact (θ_run _ _ _).mono (fun _ h c => ⟨(h c).1.trans (Cert.KernelIdeal.AG.outF_eq m _ hagree c), (h c).2⟩)
      (Cert.KernelIdeal.AG.Launch.kernel_run_of (F := Ideal) m g (Cert.KernelIdeal.AG.sound_body m g))
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel, frame_KernelIdeal, frame_ReferenceIdeal, trivial, algebraic⟩

end Cert.Proof

end
